-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x4096x64 : Shape := ⟨4, ![1, 16, 4096, 64]⟩
abbrev S1x16x64x4096 : Shape := ⟨4, ![1, 16, 64, 4096]⟩
abbrev S_ : Shape := ⟨0, ![]⟩

class Facts : Prop where
  bcast_S_S1x16x4096x64 : S_.BroadcastsInDim S1x16x4096x64 (![] : Fin 0 → Fin S1x16x4096x64.rank)
  reducesTo_S1x16x4096x64_S_d0_1_2_3 : S1x16x4096x64.ReducesTo [0, 1, 2, 3] S_
  h_S_ : 0 < S_.numel
  bcast_S_S1x16x64x4096 : S_.BroadcastsInDim S1x16x64x4096 (![] : Fin 0 → Fin S1x16x64x4096.rank)
  reducesTo_S1x16x64x4096_S_d0_1_2_3 : S1x16x64x4096.ReducesTo [0, 1, 2, 3] S_

variable [Facts]

def fn {F : FTy → Type} [FloatOps F] (main_arg0 : FVec F S1x16x4096x64 .f32) (main_arg1 : FVec F S1x16x64x4096 .f32) (main_arg2 : FVec F S1x16x4096x64 .f32) : IVec S_ 1 :=
  let main_v0 : FVec F S1x16x4096x64 .f32 := Host.absf main_arg0
  let main_cst : FVec F S_ .f32 := constant S_ .f32 0x7F800000#32
  let main_v1 : FVec F S1x16x4096x64 .f32 := broadcastInDim S1x16x4096x64 ![] bcast_S_S1x16x4096x64 main_cst
  let main_v2 : IVec S1x16x4096x64 1 := cmpf .olt main_v0 main_v1
  let main_c : IVec S_ 1 := constantI S_ 1 1#1
  let main_v3 : IVec S_ 1 := (fun x v => Host.reduce IntOp.andi x v reducesTo_S1x16x4096x64_S_d0_1_2_3 h_S_) main_v2 main_c
  let main_v4 : FVec F S1x16x64x4096 .f32 := Host.absf main_arg1
  let main_cst_0 : FVec F S_ .f32 := constant S_ .f32 0x7F800000#32
  let main_v5 : FVec F S1x16x64x4096 .f32 := broadcastInDim S1x16x64x4096 ![] bcast_S_S1x16x64x4096 main_cst_0
  let main_v6 : IVec S1x16x64x4096 1 := cmpf .olt main_v4 main_v5
  let main_c_1 : IVec S_ 1 := constantI S_ 1 1#1
  let main_v7 : IVec S_ 1 := (fun x v => Host.reduce IntOp.andi x v reducesTo_S1x16x64x4096_S_d0_1_2_3 h_S_) main_v6 main_c_1
  let main_v8 : IVec S_ 1 := andi main_v3 main_v7
  let main_v9 : FVec F S1x16x4096x64 .f32 := Host.absf main_arg2
  let main_cst_2 : FVec F S_ .f32 := constant S_ .f32 0x7F800000#32
  let main_v10 : FVec F S1x16x4096x64 .f32 := broadcastInDim S1x16x4096x64 ![] bcast_S_S1x16x4096x64 main_cst_2
  let main_v11 : IVec S1x16x4096x64 1 := cmpf .olt main_v9 main_v10
  let main_c_3 : IVec S_ 1 := constantI S_ 1 1#1
  let main_v12 : IVec S_ 1 := (fun x v => Host.reduce IntOp.andi x v reducesTo_S1x16x4096x64_S_d0_1_2_3 h_S_) main_v11 main_c_3
  let main_v13 : IVec S_ 1 := andi main_v8 main_v12
  main_v13
-- ==== Kernel.lean ====
abbrev S1x16x4096x64 : Shape := ⟨4, ![1, 16, 4096, 64]⟩
abbrev S1x16x64x4096 : Shape := ⟨4, ![1, 16, 64, 4096]⟩
abbrev S1x16x1x4096 : Shape := ⟨4, ![1, 16, 1, 4096]⟩
abbrev S1x1x512x64 : Shape := ⟨4, ![1, 1, 512, 64]⟩
abbrev S1x1x64x4096 : Shape := ⟨4, ![1, 1, 64, 4096]⟩
abbrev S1x1x4096x64 : Shape := ⟨4, ![1, 1, 4096, 64]⟩
abbrev S1x1x1x4096 : Shape := ⟨4, ![1, 1, 1, 4096]⟩
abbrev S512x1 : Shape := ⟨2, ![512, 1]⟩
abbrev S512x64 : Shape := ⟨2, ![512, 64]⟩
abbrev S512x4096 : Shape := ⟨2, ![512, 4096]⟩
abbrev S512x8 : Shape := ⟨2, ![512, 8]⟩
abbrev S8x4096 : Shape := ⟨2, ![8, 4096]⟩
abbrev S512x512 : Shape := ⟨2, ![512, 512]⟩
abbrev S1x1x64x512 : Shape := ⟨4, ![1, 1, 64, 512]⟩
abbrev S64x512 : Shape := ⟨2, ![64, 512]⟩
abbrev S512 : Shape := ⟨1, ![512]⟩
abbrev S1x512 : Shape := ⟨2, ![1, 512]⟩
abbrev S1x4096 : Shape := ⟨2, ![1, 4096]⟩
abbrev S1x16x4096 : Shape := ⟨3, ![1, 16, 4096]⟩

abbrev nBuf : Space → Nat
  | .hbm => 9
  | .vmem => 16
  | .smem => 0
  | _ => 0

abbrev bufTy : (tb : Table) → Fin (tcTables nBuf tb) → BufTy
  | .hbm, ⟨0, _⟩ => ⟨S1x16x4096x64, .f32⟩
  | .hbm, ⟨1, _⟩ => ⟨S1x16x64x4096, .f32⟩
  | .hbm, ⟨2, _⟩ => ⟨S1x16x4096x64, .f32⟩
  | .hbm, ⟨3, _⟩ => ⟨S1x16x4096x64, .bf16⟩
  | .hbm, ⟨4, _⟩ => ⟨S1x16x64x4096, .bf16⟩
  | .hbm, ⟨5, _⟩ => ⟨S1x16x4096x64, .bf16⟩
  | .hbm, ⟨6, _⟩ => ⟨S1x16x4096x64, .f32⟩
  | .hbm, ⟨7, _⟩ => ⟨S1x16x1x4096, .f32⟩
  | .hbm, ⟨8, _⟩ => ⟨S1x16x4096, .f32⟩
  | .local _ .vmem, ⟨0, _⟩ => ⟨S1x1x512x64, .bf16⟩
  | .local _ .vmem, ⟨1, _⟩ => ⟨S1x1x512x64, .bf16⟩
  | .local _ .vmem, ⟨2, _⟩ => ⟨S1x1x64x4096, .bf16⟩
  | .local _ .vmem, ⟨3, _⟩ => ⟨S1x1x64x4096, .bf16⟩
  | .local _ .vmem, ⟨4, _⟩ => ⟨S1x1x4096x64, .bf16⟩
  | .local _ .vmem, ⟨5, _⟩ => ⟨S1x1x4096x64, .bf16⟩
  | .local _ .vmem, ⟨6, _⟩ => ⟨S1x1x512x64, .f32⟩
  | .local _ .vmem, ⟨7, _⟩ => ⟨S1x1x512x64, .f32⟩
  | .local _ .vmem, ⟨8, _⟩ => ⟨S1x1x1x4096, .f32⟩
  | .local _ .vmem, ⟨9, _⟩ => ⟨S1x1x1x4096, .f32⟩
  | .local _ .vmem, ⟨10, _⟩ => ⟨S512x1, .f32⟩
  | .local _ .vmem, ⟨11, _⟩ => ⟨S512x1, .f32⟩
  | .local _ .vmem, ⟨12, _⟩ => ⟨S512x64, .f32⟩
  | .local _ .vmem, ⟨13, _⟩ => ⟨S512x4096, .bf16⟩
  | .local _ .vmem, ⟨14, _⟩ => ⟨S512x8, .f32⟩
  | .local _ .vmem, ⟨15, _⟩ => ⟨S8x4096, .f32⟩
  | _, _ => ⟨S1x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond26 (i : grid0.Coords) : BitVec 1 :=
  let arg1 : BitVec 32 := BitVec.ofNat 32 (i 1).val
  let c7_i32_64 : BitVec 32 := 7#32
  let v102 : BitVec 1 := Scalar.cmpi .eq arg1 c7_i32_64
  let v103 : BitVec 32 := Scalar.extui v102
  let c0_i32_65 : BitVec 32 := 0#32
  let v104 : BitVec 1 := Scalar.cmpi .ne v103 c0_i32_65
  v104

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  iota_S512x512_d0_w32 : S512x512.Iotas .tc 32 [0]
  iota_S512x512_d1_w32 : S512x512.Iotas .tc 32 [1]
  inb_S1x1x64x4096_S1x1x64x512_0_0_0_0 : ∀ a, (![0, 0, 0, 0] : Fin 4 → Nat) a + S1x1x64x512.size a ≤ S1x1x64x4096.size a
  h_S1x1x64x512 : 0 < S1x1x64x512.numel
  shapeCasts_S1x1x64x512_S64x512 : S1x1x64x512.ShapeCasts S64x512
  reduces_S512x512_S512 : S512x512.Reduces [1] S512
  shapeCasts_S512_S512x1 : S512.ShapeCasts S512x1
  broadcasts_S512x1_S512x512 : S512x1.Broadcasts S512x512
  inb_S1x1x4096x64_S1x1x512x64_0_0_0_0 : ∀ a, (![0, 0, 0, 0] : Fin 4 → Nat) a + S1x1x512x64.size a ≤ S1x1x4096x64.size a
  broadcasts_S512x1_S512x64 : S512x1.Broadcasts S512x64
  inb_S512x4096_S512x512_0_0 : ∀ a, (![0, 0] : Fin 2 → Nat) a + S512x512.size a ≤ S512x4096.size a
  h_S512x512 : 0 < S512x512.numel
  shapeCasts_S512x512_S512x512 : S512x512.ShapeCasts S512x512
  packedbf16_S512x4096_S512x512_0_0 : (Rect.unit (s := S512x4096) ![0, 0] S512x512.size inb_S512x4096_S512x512_0_0).PackedRows (EltTy.packing .bf16)
  inb_S512x8_S512x1_0_0 : ∀ a, (![0, 0] : Fin 2 → Nat) a + S512x1.size a ≤ S512x8.size a
  inb_S1x1x64x4096_S1x1x64x512_0_0_0_512 : ∀ a, (![0, 0, 0, 512] : Fin 4 → Nat) a + S1x1x64x512.size a ≤ S1x1x64x4096.size a
  inb_S1x1x4096x64_S1x1x512x64_0_0_512_0 : ∀ a, (![0, 0, 512, 0] : Fin 4 → Nat) a + S1x1x512x64.size a ≤ S1x1x4096x64.size a
  inb_S512x4096_S512x512_0_512 : ∀ a, (![0, 512] : Fin 2 → Nat) a + S512x512.size a ≤ S512x4096.size a
  packedbf16_S512x4096_S512x512_0_512 : (Rect.unit (s := S512x4096) ![0, 512] S512x512.size inb_S512x4096_S512x512_0_512).PackedRows (EltTy.packing .bf16)
  inb_S512x8_S512x1_0_1 : ∀ a, (![0, 1] : Fin 2 → Nat) a + S512x1.size a ≤ S512x8.size a
  inb_S1x1x64x4096_S1x1x64x512_0_0_0_1024 : ∀ a, (![0, 0, 0, 1024] : Fin 4 → Nat) a + S1x1x64x512.size a ≤ S1x1x64x4096.size a
  inb_S1x1x4096x64_S1x1x512x64_0_0_1024_0 : ∀ a, (![0, 0, 1024, 0] : Fin 4 → Nat) a + S1x1x512x64.size a ≤ S1x1x4096x64.size a
  inb_S512x4096_S512x512_0_1024 : ∀ a, (![0, 1024] : Fin 2 → Nat) a + S512x512.size a ≤ S512x4096.size a
  packedbf16_S512x4096_S512x512_0_1024 : (Rect.unit (s := S512x4096) ![0, 1024] S512x512.size inb_S512x4096_S512x512_0_1024).PackedRows (EltTy.packing .bf16)
  inb_S512x8_S512x1_0_2 : ∀ a, (![0, 2] : Fin 2 → Nat) a + S512x1.size a ≤ S512x8.size a
  inb_S1x1x64x4096_S1x1x64x512_0_0_0_1536 : ∀ a, (![0, 0, 0, 1536] : Fin 4 → Nat) a + S1x1x64x512.size a ≤ S1x1x64x4096.size a
  inb_S1x1x4096x64_S1x1x512x64_0_0_1536_0 : ∀ a, (![0, 0, 1536, 0] : Fin 4 → Nat) a + S1x1x512x64.size a ≤ S1x1x4096x64.size a
  inb_S512x4096_S512x512_0_1536 : ∀ a, (![0, 1536] : Fin 2 → Nat) a + S512x512.size a ≤ S512x4096.size a
  packedbf16_S512x4096_S512x512_0_1536 : (Rect.unit (s := S512x4096) ![0, 1536] S512x512.size inb_S512x4096_S512x512_0_1536).PackedRows (EltTy.packing .bf16)
  inb_S512x8_S512x1_0_3 : ∀ a, (![0, 3] : Fin 2 → Nat) a + S512x1.size a ≤ S512x8.size a
  inb_S1x1x64x4096_S1x1x64x512_0_0_0_2048 : ∀ a, (![0, 0, 0, 2048] : Fin 4 → Nat) a + S1x1x64x512.size a ≤ S1x1x64x4096.size a
  inb_S1x1x4096x64_S1x1x512x64_0_0_2048_0 : ∀ a, (![0, 0, 2048, 0] : Fin 4 → Nat) a + S1x1x512x64.size a ≤ S1x1x4096x64.size a
  inb_S512x4096_S512x512_0_2048 : ∀ a, (![0, 2048] : Fin 2 → Nat) a + S512x512.size a ≤ S512x4096.size a
  packedbf16_S512x4096_S512x512_0_2048 : (Rect.unit (s := S512x4096) ![0, 2048] S512x512.size inb_S512x4096_S512x512_0_2048).PackedRows (EltTy.packing .bf16)
  inb_S512x8_S512x1_0_4 : ∀ a, (![0, 4] : Fin 2 → Nat) a + S512x1.size a ≤ S512x8.size a
  inb_S1x1x64x4096_S1x1x64x512_0_0_0_2560 : ∀ a, (![0, 0, 0, 2560] : Fin 4 → Nat) a + S1x1x64x512.size a ≤ S1x1x64x4096.size a
  inb_S1x1x4096x64_S1x1x512x64_0_0_2560_0 : ∀ a, (![0, 0, 2560, 0] : Fin 4 → Nat) a + S1x1x512x64.size a ≤ S1x1x4096x64.size a
  inb_S512x4096_S512x512_0_2560 : ∀ a, (![0, 2560] : Fin 2 → Nat) a + S512x512.size a ≤ S512x4096.size a
  packedbf16_S512x4096_S512x512_0_2560 : (Rect.unit (s := S512x4096) ![0, 2560] S512x512.size inb_S512x4096_S512x512_0_2560).PackedRows (EltTy.packing .bf16)
  inb_S512x8_S512x1_0_5 : ∀ a, (![0, 5] : Fin 2 → Nat) a + S512x1.size a ≤ S512x8.size a
  inb_S1x1x64x4096_S1x1x64x512_0_0_0_3072 : ∀ a, (![0, 0, 0, 3072] : Fin 4 → Nat) a + S1x1x64x512.size a ≤ S1x1x64x4096.size a
  inb_S1x1x4096x64_S1x1x512x64_0_0_3072_0 : ∀ a, (![0, 0, 3072, 0] : Fin 4 → Nat) a + S1x1x512x64.size a ≤ S1x1x4096x64.size a
  inb_S512x4096_S512x512_0_3072 : ∀ a, (![0, 3072] : Fin 2 → Nat) a + S512x512.size a ≤ S512x4096.size a
  packedbf16_S512x4096_S512x512_0_3072 : (Rect.unit (s := S512x4096) ![0, 3072] S512x512.size inb_S512x4096_S512x512_0_3072).PackedRows (EltTy.packing .bf16)
  inb_S512x8_S512x1_0_6 : ∀ a, (![0, 6] : Fin 2 → Nat) a + S512x1.size a ≤ S512x8.size a
  inb_S1x1x64x4096_S1x1x64x512_0_0_0_3584 : ∀ a, (![0, 0, 0, 3584] : Fin 4 → Nat) a + S1x1x64x512.size a ≤ S1x1x64x4096.size a
  inb_S1x1x4096x64_S1x1x512x64_0_0_3584_0 : ∀ a, (![0, 0, 3584, 0] : Fin 4 → Nat) a + S1x1x512x64.size a ≤ S1x1x4096x64.size a
  inb_S512x4096_S512x512_0_3584 : ∀ a, (![0, 3584] : Fin 2 → Nat) a + S512x512.size a ≤ S512x4096.size a
  packedbf16_S512x4096_S512x512_0_3584 : (Rect.unit (s := S512x4096) ![0, 3584] S512x512.size inb_S512x4096_S512x512_0_3584).PackedRows (EltTy.packing .bf16)
  inb_S512x8_S512x1_0_7 : ∀ a, (![0, 7] : Fin 2 → Nat) a + S512x1.size a ≤ S512x8.size a
  shapeCasts_S512x64_S1x1x512x64 : S512x64.ShapeCasts S1x1x512x64
  reduces_S512x512_S512_2 : S512x512.Reduces [0] S512
  shapeCasts_S512_S1x512 : S512.ShapeCasts S1x512
  inb_S8x4096_S1x512_0_0 : ∀ a, (![0, 0] : Fin 2 → Nat) a + S1x512.size a ≤ S8x4096.size a
  h_S1x512 : 0 < S1x512.numel
  shapeCasts_S1x512_S1x512 : S1x512.ShapeCasts S1x512
  inb_S8x4096_S1x512_0_512 : ∀ a, (![0, 512] : Fin 2 → Nat) a + S1x512.size a ≤ S8x4096.size a
  inb_S8x4096_S1x512_0_1024 : ∀ a, (![0, 1024] : Fin 2 → Nat) a + S1x512.size a ≤ S8x4096.size a
  inb_S8x4096_S1x512_0_1536 : ∀ a, (![0, 1536] : Fin 2 → Nat) a + S1x512.size a ≤ S8x4096.size a
  inb_S8x4096_S1x512_0_2048 : ∀ a, (![0, 2048] : Fin 2 → Nat) a + S1x512.size a ≤ S8x4096.size a
  inb_S8x4096_S1x512_0_2560 : ∀ a, (![0, 2560] : Fin 2 → Nat) a + S1x512.size a ≤ S8x4096.size a
  inb_S8x4096_S1x512_0_3072 : ∀ a, (![0, 3072] : Fin 2 → Nat) a + S1x512.size a ≤ S8x4096.size a
  inb_S8x4096_S1x512_0_3584 : ∀ a, (![0, 3584] : Fin 2 → Nat) a + S1x512.size a ≤ S8x4096.size a
  inb_S8x4096_S1x4096_0_0 : ∀ a, (![0, 0] : Fin 2 → Nat) a + S1x4096.size a ≤ S8x4096.size a
  h_S1x4096 : 0 < S1x4096.numel
  inb_S1x1x1x4096_S1x1x1x4096_0_0_0_0 : ∀ a, (![0, 0, 0, 0] : Fin 4 → Nat) a + S1x1x1x4096.size a ≤ S1x1x1x4096.size a
  h_S1x1x1x4096 : 0 < S1x1x1x4096.numel
  shapeCasts_S1x1x1x4096_S1x4096 : S1x1x1x4096.ShapeCasts S1x4096
  shapeCasts_S1x4096_S1x1x1x4096 : S1x4096.ShapeCasts S1x1x1x4096
  shapeCasts_S1x16x1x4096_S1x16x4096 : S1x16x1x4096.ShapeCasts S1x16x4096
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S1x16x4096x64.size a
  hwx0_0 : ∀ i : grid0.Coords, EltTy.bits .bf16 = 32 ∨ (Rect.block (s := S1x16x4096x64) S1x1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x4096.size a ≤ S1x16x64x4096.size a
  hwx0_1 : ∀ i : grid0.Coords, EltTy.bits .bf16 = 32 ∨ (Rect.block (s := S1x16x64x4096) S1x1x64x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x64.size a ≤ S1x16x4096x64.size a
  hwx0_2 : ∀ i : grid0.Coords, EltTy.bits .bf16 = 32 ∨ (Rect.block (s := S1x16x4096x64) S1x1x4096x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x64.size a ≤ S1x16x4096x64.size a
  hwx0_3 : ∀ i : grid0.Coords, EltTy.bits .f32 = 32 ∨ (Rect.block (s := S1x16x4096x64) S1x1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1x4096.size a ≤ S1x16x1x4096.size a
  hwx0_4 : ∀ i : grid0.Coords, EltTy.bits .f32 = 32 ∨ (Rect.block (s := S1x16x1x4096) S1x1x1x4096.size (cc0_transform_4 i) (hinb0_4 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1x1x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond26 i == 1#1) | ⟨_ + 5, h⟩ => absurd h (Nat.not_lt.2 (Nat.le_add_left _ _))

class Facts : Prop extends Facts₀ where

variable [Facts]
-- ==== ReferenceIdeal.lean ====
abbrev S1x16x4096x64 : Shape := ⟨4, ![1, 16, 4096, 64]⟩
abbrev S1x16x64x4096 : Shape := ⟨4, ![1, 16, 64, 4096]⟩
abbrev S_ : Shape := ⟨0, ![]⟩
abbrev S4096x4096 : Shape := ⟨2, ![4096, 4096]⟩
abbrev S1x16x4096x4096 : Shape := ⟨4, ![1, 16, 4096, 4096]⟩
abbrev S1x1x4096x4096 : Shape := ⟨4, ![1, 1, 4096, 4096]⟩
abbrev S1x16x4096 : Shape := ⟨3, ![1, 16, 4096]⟩
abbrev S1x16x4096x1 : Shape := ⟨4, ![1, 16, 4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S1x16x4096x64, .f32⟩
  | .hbm, ⟨1, _⟩ => ⟨S1x16x64x4096, .f32⟩
  | .hbm, ⟨2, _⟩ => ⟨S1x16x4096x64, .f32⟩
  | .hbm, ⟨3, _⟩ => ⟨S_, .i1⟩
  | .hbm, ⟨4, _⟩ => ⟨S4096x4096, .i1⟩
  | .hbm, ⟨5, _⟩ => ⟨S4096x4096, .i32⟩
  | .hbm, ⟨6, _⟩ => ⟨S_, .i32⟩
  | .hbm, ⟨7, _⟩ => ⟨S4096x4096, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S_, .i1⟩
  | .hbm, ⟨12, _⟩ => ⟨S4096x4096, .i1⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S1x16x4096x4096, .f32⟩
  | .hbm, ⟨20, _⟩ => ⟨S_, .f32⟩
  | .hbm, ⟨21, _⟩ => ⟨S1x16x4096x4096, .f32⟩
  | .hbm, ⟨22, _⟩ => ⟨S1x16x4096x4096, .f32⟩
  | .hbm, ⟨23, _⟩ => ⟨S1x1x4096x4096, .f32⟩
  | .hbm, ⟨24, _⟩ => ⟨S1x16x4096x4096, .f32⟩
  | .hbm, ⟨25, _⟩ => ⟨S1x16x4096x4096, .f32⟩
  | .hbm, ⟨26, _⟩ => ⟨S_, .f32⟩
  | .hbm, ⟨27, _⟩ => ⟨S1x16x4096, .f32⟩
  | .hbm, ⟨28, _⟩ => ⟨S1x16x4096x1, .f32⟩
  | .hbm, ⟨29, _⟩ => ⟨S1x16x4096x4096, .f32⟩
  | .hbm, ⟨30, _⟩ => ⟨S1x16x4096x4096, .f32⟩
  | .hbm, ⟨31, _⟩ => ⟨S1x16x4096x4096, .f32⟩
  | .hbm, ⟨32, _⟩ => ⟨S_, .f32⟩
  | .hbm, ⟨33, _⟩ => ⟨S1x16x4096, .f32⟩
  | .hbm, ⟨34, _⟩ => ⟨S1x16x4096x1, .f32⟩
  | .hbm, ⟨35, _⟩ => ⟨S1x16x4096x4096, .f32⟩
  | .hbm, ⟨36, _⟩ => ⟨S1x16x4096x4096, .f32⟩
  | .hbm, ⟨37, _⟩ => ⟨S1x16x4096x64, .f32⟩
  | .hbm, ⟨38, _⟩ => ⟨S_, .f32⟩
  | .hbm, ⟨39, _⟩ => ⟨S1x16x4096, .f32⟩
  | _, _ => ⟨S1x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_0 : Ref sig .tc := ⟨.hbm, 11, rfl⟩
abbrev main_call0_v5 : Ref sig .tc := ⟨.hbm, 12, rfl⟩
abbrev main_v1 : Ref sig .tc := ⟨.hbm, 13, rfl⟩
abbrev main_cst : Ref sig .tc := ⟨.hbm, 14, rfl⟩
abbrev main_cst_0 : Ref sig .tc := ⟨.hbm, 15, rfl⟩
abbrev main_call1_v0 : Ref sig .tc := ⟨.hbm, 16, rfl⟩
abbrev main_call1_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S1x16x4096x4096 : S_.BroadcastsInDim S1x16x4096x4096 (![] : Fin 0 → Fin S1x16x4096x4096.rank)
  bcast_S4096x4096_S1x1x4096x4096_2_3 : S4096x4096.BroadcastsInDim S1x1x4096x4096 (![2, 3] : Fin 2 → Fin S1x1x4096x4096.rank)
  bcast_S1x1x4096x4096_S1x16x4096x4096_0_1_2_3 : S1x1x4096x4096.BroadcastsInDim S1x16x4096x4096 (![0, 1, 2, 3] : Fin 4 → Fin S1x16x4096x4096.rank)
  reducesTo_S1x16x4096x4096_S1x16x4096_d3 : S1x16x4096x4096.ReducesTo [3] S1x16x4096
  h_S_ : 0 < S_.numel
  bcast_S1x16x4096_S1x16x4096x1_0_1_2 : S1x16x4096.BroadcastsInDim S1x16x4096x1 (![0, 1, 2] : Fin 3 → Fin S1x16x4096x1.rank)
  bcast_S1x16x4096x1_S1x16x4096x4096_0_1_2_3 : S1x16x4096x1.BroadcastsInDim S1x16x4096x4096 (![0, 1, 2, 3] : Fin 4 → Fin S1x16x4096x4096.rank)
  reducesTo_S1x16x4096x4096_S1x16x4096_d2 : S1x16x4096x4096.ReducesTo [2] S1x16x4096
  dot_S1x16x4096x64_S1x16x64x4096_S1x16x4096x4096_3_2_2_3_01_01_wf : DotDims.WF S1x16x4096x64 S1x16x64x4096 S1x16x4096x4096 [3] [2] [2] [3] [0, 1] [0, 1]
  dot_S1x16x4096x4096_S1x16x4096x64_S1x16x4096x64_3_2_2_3_01_01_wf : DotDims.WF S1x16x4096x4096 S1x16x4096x64 S1x16x4096x64 [3] [2] [2] [3] [0, 1] [0, 1]

variable [Facts₀]

def dot_S1x16x4096x64_S1x16x64x4096_S1x16x4096x4096_3_2_2_3_01_01 : DotDims S1x16x4096x64 S1x16x64x4096 S1x16x4096x4096 where
  lhsContracting := [3]
  rhsContracting := [2]
  lhsNonContracting := [2]
  rhsNonContracting := [3]
  lhsBatch := [0, 1]
  rhsBatch := [0, 1]
  wf := dot_S1x16x4096x64_S1x16x64x4096_S1x16x4096x4096_3_2_2_3_01_01_wf
def dot_S1x16x4096x4096_S1x16x4096x64_S1x16x4096x64_3_2_2_3_01_01 : DotDims S1x16x4096x4096 S1x16x4096x64 S1x16x4096x64 where
  lhsContracting := [3]
  rhsContracting := [2]
  lhsNonContracting := [2]
  rhsNonContracting := [3]
  lhsBatch := [0, 1]
  rhsBatch := [0, 1]
  wf := dot_S1x16x4096x4096_S1x16x4096x64_S1x16x4096x64_3_2_2_3_01_01_wf

class Facts : Prop extends Facts₀ where

variable [Facts]
-- ==== Proof.K.Shared.lean ====
import proofs.«407351_j22883585753581_3_alg».proof.Proof.Gen.Kernel.Frame
import proofs.«407351_j22883585753581_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's eleven buffers, each held whole. -/
structure Operands where
  arg2 : Memref sig .tc .vmem S1x1x512x64 .bf16
  harg2 : arg2.IsWhole
  arg3 : Memref sig .tc .vmem S1x1x64x4096 .bf16
  harg3 : arg3.IsWhole
  arg4 : Memref sig .tc .vmem S1x1x4096x64 .bf16
  harg4 : arg4.IsWhole
  arg5 : Memref sig .tc .vmem S1x1x512x64 .f32
  harg5 : arg5.IsWhole
  arg6 : Memref sig .tc .vmem S1x1x1x4096 .f32
  harg6 : arg6.IsWhole
  arg7 : Memref sig .tc .vmem S512x1 .f32
  harg7 : arg7.IsWhole
  arg8 : Memref sig .tc .vmem S512x1 .f32
  harg8 : arg8.IsWhole
  arg9 : Memref sig .tc .vmem S512x64 .f32
  harg9 : arg9.IsWhole
  arg10 : Memref sig .tc .vmem S512x4096 .bf16
  harg10 : arg10.IsWhole
  arg11 : Memref sig .tc .vmem S512x8 .f32
  harg11 : arg11.IsWhole
  arg12 : Memref sig .tc .vmem S8x4096 .f32
  harg12 : arg12.IsWhole

theorem N_eq : cfg0.N = 128 := N_0

theorem coords_qi : ∀ t : Fin cfg0.N, ((grid0.coords t) 1).val = t.val % 8 :=
  (by decide +kernel : ∀ t : Fin grid0.N, ((grid0.coords t) 1).val = t.val % 8)

theorem qi_lt (t : Fin cfg0.N) : t.val % 8 < 8 := Nat.mod_lt _ (by decide)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4 : ∀ t : Fin cfg0.N, t.val % 8 ≠ 7 → cfg0.idle 4 (grid0.coords t) = true :=
  (by decide +kernel : ∀ t : Fin grid0.N, t.val % 8 ≠ 7 → cfg0.idle 4 (grid0.coords t) = true)

theorem liveAt0_4 : ∀ t : Fin cfg0.N, t.val % 8 = 7 → cfg0.idle 4 (grid0.coords t) = false :=
  (by decide +kernel : ∀ t : Fin grid0.N, t.val % 8 = 7 → cfg0.idle 4 (grid0.coords t) = false)

theorem noFlush0_4 (t : Fin cfg0.N) (h : t.val % 8 ≠ 7) : (cfg0.win 4).flush t = false :=
  Bool.eq_false_iff.mpr fun hf => h ((flush0_4 t).mp hf)

abbrev ms0_0 (t : Fin cfg0.N) : Memref sig .tc .vmem S1x1x512x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x64x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1x4096 .f32 := win0_4.stage (cfg0.slots t 4)
abbrev hs0_4 (t : Fin cfg0.N) : (ms0_4 t).IsWhole := hstage0_4 ((cfg0.slots t 4).cast nbuf0_4)

abbrev scM0_0 : Memref sig .tc .vmem S512x1 .f32 := Memref.whole cc0_scratch0
abbrev scM0_1 : Memref sig .tc .vmem S512x1 .f32 := Memref.whole cc0_scratch1
abbrev scM0_2 : Memref sig .tc .vmem S512x64 .f32 := Memref.whole cc0_scratch2
abbrev scM0_3 : Memref sig .tc .vmem S512x4096 .bf16 := Memref.whole cc0_scratch3
abbrev scM0_4 : Memref sig .tc .vmem S512x8 .f32 := Memref.whole cc0_scratch4
abbrev scM0_5 : Memref sig .tc .vmem S8x4096 .f32 := Memref.whole cc0_scratch5
theorem hscM0_5 : scM0_5.IsWhole := Memref.isWhole_whole _

/-- The body's operands at grid point `t`. -/
abbrev operandsAt (t : Fin cfg0.N) : Operands :=
  ⟨ms0_0 t, hs0_0 t, ms0_1 t, hs0_1 t, ms0_2 t, hs0_2 t, ms0_3 t, hs0_3 t, ms0_4 t, hs0_4 t, scM0_0, Memref.isWhole_whole _,
    scM0_1, Memref.isWhole_whole _, scM0_2, Memref.isWhole_whole _, scM0_3, Memref.isWhole_whole _, scM0_4, Memref.isWhole_whole _,
    scM0_5, hscM0_5⟩

abbrev VS0_5 : View sig .tc .vmem S8x4096 .f32 := scM0_5.view

abbrev VO0_3 : View sig .tc .vmem S1x1x512x64 .f32 := (Memref.whole cc0_stg3_0 : Memref sig .tc .vmem S1x1x512x64 .f32).view
abbrev VO0_4 : View sig .tc .vmem S1x1x1x4096 .f32 := (Memref.whole cc0_stg4_0 : Memref sig .tc .vmem S1x1x1x4096 .f32).view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)
          ∗ (∃ d, owns (c : Thread nD τ) scM0_4 fullShare d) ∗ (∃ d, owns (c : Thread nD τ) scM0_5 fullShare d))
        ∗ (∃ r, prngReg c r)) := by
  unfold Pipeline.ΦA; rw [scopedRest0_eq]; simp only [scM0_0, scM0_1, scM0_2, scM0_3, scM0_4, scM0_5, owns_whole]; try rfl

end Cert.Kernel.Hand

end
-- ==== Proof.K.Run0.lean ====
import proofs.«407351_j22883585753581_3_alg».proof.Proof.K.Shared
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

/-- Tile 0 sets the column-sum scratch to zero before it adds into it, so the scratch may enter at any contents. -/
noncomputable def kernelRun_0 (c : Dev nD) (i : grid0.Coords) (B : Operands) (hq : (i 1).val = 0)
    (x2 : Vec F S1x1x512x64 .bf16) (x3 : Vec F S1x1x64x4096 .bf16) (x4 : Vec F S1x1x4096x64 .bf16) :
    Σ' (L5 : List (View.Piece (Elt F) S1x1x512x64 .f32)) (L6 : List (View.Piece (Elt F) S1x1x1x4096 .f32)), { LS12 : List (View.Piece (Elt F) S8x4096 .f32) //
      ∀ (xi6 : Vec F S1x1x1x4096 .f32) (E : Set ℕ) (K : PUnit → sProp 𝕄),
        iprop(owns (c : Thread nD τ) B.arg2 fullShare x2 ∗ owns (c : Thread nD τ) B.arg3 fullShare x3 ∗ owns (c : Thread nD τ) B.arg4 fullShare x4
            ∗ (∃ d, owns (c : Thread nD τ) B.arg5 fullShare d)
            ∗ owns (c : Thread nD τ) B.arg6 fullShare xi6
            ∗ (∃ d, owns (c : Thread nD τ) B.arg7 fullShare d) ∗ (∃ d, owns (c : Thread nD τ) B.arg8 fullShare d) ∗ (∃ d, owns (c : Thread nD τ) B.arg9 fullShare d) ∗ (∃ d, owns (c : Thread nD τ) B.arg10 fullShare d) ∗ (∃ d, owns (c : Thread nD τ) B.arg11 fullShare d)
            ∗ (∃ d, owns (c : Thread nD τ) B.arg12 fullShare d)
            ∗ (iprop(owns (c : Thread nD τ) B.arg2 fullShare x2 ∗ owns (c : Thread nD τ) B.arg3 fullShare x3 ∗ owns (c : Thread nD τ) B.arg4 fullShare x4
                  ∗ (∃ f, B.arg5.view.loc (c : Thread nD τ) ↦[B.arg5.view.set]{fullShare} B.arg5.view.writes (Elt F) f L5)
                  ∗ owns (c : Thread nD τ) B.arg6 fullShare xi6
                  ∗ (∃ d, owns (c : Thread nD τ) B.arg7 fullShare d) ∗ (∃ d, owns (c : Thread nD τ) B.arg8 fullShare d) ∗ (∃ d, owns (c : Thread nD τ) B.arg9 fullShare d) ∗ (∃ d, owns (c : Thread nD τ) B.arg10 fullShare d) ∗ (∃ d, owns (c : Thread nD τ) B.arg11 fullShare d)
                  ∗ (∃ f, B.arg12.view.loc (c : Thread nD τ) ↦[B.arg12.view.set]{fullShare} B.arg12.view.writes (Elt F) f LS12)) -∗ K ⟨⟩))
          ⊢ wp frame (wpE (defs₀ (F := F)) Variants.none c none) E (cc0__attn_kernel i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12) K } := by
  refine ⟨?_, [], ?_, fun xi6 E K => ?run⟩
  case run =>
    sl_unfold [cc0__attn_kernel]
    unfold owns
    iintro ⟨⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := B.harg2.eq_unread hf2; obtain rfl := B.harg3.eq_unread hf3; obtain rfl := B.harg4.eq_unread hf4; obtain rfl := B.harg6.eq_unread hf6
    sl_exec (disch := first | (sl_unfold_run_names; simp only [hq]; decide) | (delta k0_cond26; simp only [hq]; decide))
    sl_step
    iapply Hk
    isplitl [H2]
    · iexists _; isplitr; · ipureintro; exact B.harg2.read_unread _
      iexact H2
    isplitl [H3]
    · iexists _; isplitr; · ipureintro; exact B.harg3.read_unread _
      iexact H3
    isplitl [H4]
    · iexists _; isplitr; · ipureintro; exact B.harg4.read_unread _
      iexact H4
    isplitl [H5]; · iexists _; iexact H5
    isplitl [H6]
    · iexists _; isplitr; · ipureintro; exact B.harg6.read_unread _
      iexact H6
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    iexists _; iexact H12

end Cert.Kernel.Hand

end
-- ==== Proof.K.RunMid.lean ====
import proofs.«407351_j22883585753581_3_alg».proof.Proof.K.Shared
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (B : Operands)
  (x2 : Vec F S1x1x512x64 .bf16) (x3 : Vec F S1x1x64x4096 .bf16) (x4 : Vec F S1x1x4096x64 .bf16) (xs12 : Vec F S8x4096 .f32)

set_option maxHeartbeats 24000000 in
/-- Tiles 1 to 6 share one statement: their runs differ only in which comparisons of the tile index with a literal hold. -/
def kernelRunQ : (q : ℕ) → 1 ≤ q → q ≤ 6 → (i 1).val = q →
    Σ' (L5 : List (View.Piece (Elt F) S1x1x512x64 .f32)) (L6 : List (View.Piece (Elt F) S1x1x1x4096 .f32)), { LS12 : List (View.Piece (Elt F) S8x4096 .f32) //
      ∀ (xi6 : Vec F S1x1x1x4096 .f32) (E : Set ℕ) (K : PUnit → sProp 𝕄),
        iprop(owns (c : Thread nD τ) B.arg2 fullShare x2 ∗ owns (c : Thread nD τ) B.arg3 fullShare x3 ∗ owns (c : Thread nD τ) B.arg4 fullShare x4
            ∗ (∃ d, owns (c : Thread nD τ) B.arg5 fullShare d)
            ∗ owns (c : Thread nD τ) B.arg6 fullShare xi6
            ∗ (∃ d, owns (c : Thread nD τ) B.arg7 fullShare d) ∗ (∃ d, owns (c : Thread nD τ) B.arg8 fullShare d) ∗ (∃ d, owns (c : Thread nD τ) B.arg9 fullShare d) ∗ (∃ d, owns (c : Thread nD τ) B.arg10 fullShare d) ∗ (∃ d, owns (c : Thread nD τ) B.arg11 fullShare d)
            ∗ owns (c : Thread nD τ) B.arg12 fullShare xs12
            ∗ (iprop(owns (c : Thread nD τ) B.arg2 fullShare x2 ∗ owns (c : Thread nD τ) B.arg3 fullShare x3 ∗ owns (c : Thread nD τ) B.arg4 fullShare x4
                  ∗ (∃ f, B.arg5.view.loc (c : Thread nD τ) ↦[B.arg5.view.set]{fullShare} B.arg5.view.writes (Elt F) f L5)
                  ∗ owns (c : Thread nD τ) B.arg6 fullShare xi6
                  ∗ (∃ d, owns (c : Thread nD τ) B.arg7 fullShare d) ∗ (∃ d, owns (c : Thread nD τ) B.arg8 fullShare d) ∗ (∃ d, owns (c : Thread nD τ) B.arg9 fullShare d) ∗ (∃ d, owns (c : Thread nD τ) B.arg10 fullShare d) ∗ (∃ d, owns (c : Thread nD τ) B.arg11 fullShare d)
                  ∗ B.arg12.view.loc (c : Thread nD τ) ↦[B.arg12.view.set]{fullShare} B.arg12.view.writes (Elt F) (B.harg12.unread xs12) LS12) -∗ K ⟨⟩))
          ⊢ wp frame (wpE (defs₀ (F := F)) Variants.none c none) E (cc0__attn_kernel i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12) K }
  | 1, _, _, hq | 2, _, _, hq | 3, _, _, hq | 4, _, _, hq | 5, _, _, hq | 6, _, _, hq => by
    refine ⟨?_, [], ?_, fun xi6 E K => ?run⟩
    case run =>
      sl_unfold [cc0__attn_kernel]
      unfold owns
      iintro ⟨⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, Hk⟩
      obtain rfl := B.harg2.eq_unread hf2; obtain rfl := B.harg3.eq_unread hf3; obtain rfl := B.harg4.eq_unread hf4; obtain rfl := B.harg6.eq_unread hf6; obtain rfl := B.harg12.eq_unread hf12
      sl_exec (disch := first | (sl_unfold_run_names; simp only [hq]; decide) | (delta k0_cond26; simp only [hq]; decide))
      sl_step
      iapply Hk
      isplitl [H2]
      · iexists _; isplitr; · ipureintro; exact B.harg2.read_unread _
        iexact H2
      isplitl [H3]
      · iexists _; isplitr; · ipureintro; exact B.harg3.read_unread _
        iexact H3
      isplitl [H4]
      · iexists _; isplitr; · ipureintro; exact B.harg4.read_unread _
        iexact H4
      isplitl [H5]; · iexists _; iexact H5
      isplitl [H6]
      · iexists _; isplitr; · ipureintro; exact B.harg6.read_unread _
        iexact H6
      isplitl [H7]
      · iexists _; iexists _; isplitr; swap; · iexact H7
        ipureintro; rfl
      isplitl [H8]
      · iexists _; iexists _; isplitr; swap; · iexact H8
        ipureintro; rfl
      isplitl [H9]
      · iexists _; iexists _; isplitr; swap; · iexact H9
        ipureintro; rfl
      isplitl [H10]
      · iexists _; iexists _; isplitr; swap; · iexact H10
        ipureintro; rfl
      isplitl [H11]
      · iexists _; iexists _; isplitr; swap; · iexact H11
        ipureintro; rfl
      iexact H12
  | 0, h, _, _ => absurd h (by decide)
  | _ + 7, _, h, _ => absurd h (by omega)

end Cert.Kernel.Hand

end
-- ==== Proof.K.Run7.lean ====
import proofs.«407351_j22883585753581_3_alg».proof.Proof.K.Shared
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

/-- Tile 7 takes all eight chunks and then copies the finished first row of the scratch to the column-sum output. -/
noncomputable def kernelRun_7 (c : Dev nD) (i : grid0.Coords) (B : Operands) (hq : (i 1).val = 7)
    (x2 : Vec F S1x1x512x64 .bf16) (x3 : Vec F S1x1x64x4096 .bf16) (x4 : Vec F S1x1x4096x64 .bf16) (xs12 : Vec F S8x4096 .f32) :
    Σ' (L5 : List (View.Piece (Elt F) S1x1x512x64 .f32)) (L6 : List (View.Piece (Elt F) S1x1x1x4096 .f32)), { LS12 : List (View.Piece (Elt F) S8x4096 .f32) //
      ∀ (E : Set ℕ) (K : PUnit → sProp 𝕄),
        iprop(owns (c : Thread nD τ) B.arg2 fullShare x2 ∗ owns (c : Thread nD τ) B.arg3 fullShare x3 ∗ owns (c : Thread nD τ) B.arg4 fullShare x4
            ∗ (∃ d, owns (c : Thread nD τ) B.arg5 fullShare d)
            ∗ (∃ d, owns (c : Thread nD τ) B.arg6 fullShare d)
            ∗ (∃ d, owns (c : Thread nD τ) B.arg7 fullShare d) ∗ (∃ d, owns (c : Thread nD τ) B.arg8 fullShare d) ∗ (∃ d, owns (c : Thread nD τ) B.arg9 fullShare d) ∗ (∃ d, owns (c : Thread nD τ) B.arg10 fullShare d) ∗ (∃ d, owns (c : Thread nD τ) B.arg11 fullShare d)
            ∗ owns (c : Thread nD τ) B.arg12 fullShare xs12
            ∗ (iprop(owns (c : Thread nD τ) B.arg2 fullShare x2 ∗ owns (c : Thread nD τ) B.arg3 fullShare x3 ∗ owns (c : Thread nD τ) B.arg4 fullShare x4
                  ∗ (∃ f, B.arg5.view.loc (c : Thread nD τ) ↦[B.arg5.view.set]{fullShare} B.arg5.view.writes (Elt F) f L5)
                  ∗ (∃ f, B.arg6.view.loc (c : Thread nD τ) ↦[B.arg6.view.set]{fullShare} B.arg6.view.writes (Elt F) f L6)
                  ∗ (∃ d, owns (c : Thread nD τ) B.arg7 fullShare d) ∗ (∃ d, owns (c : Thread nD τ) B.arg8 fullShare d) ∗ (∃ d, owns (c : Thread nD τ) B.arg9 fullShare d) ∗ (∃ d, owns (c : Thread nD τ) B.arg10 fullShare d) ∗ (∃ d, owns (c : Thread nD τ) B.arg11 fullShare d)
                  ∗ B.arg12.view.loc (c : Thread nD τ) ↦[B.arg12.view.set]{fullShare} B.arg12.view.writes (Elt F) (B.harg12.unread xs12) LS12) -∗ K ⟨⟩))
          ⊢ wp frame (wpE (defs₀ (F := F)) Variants.none c none) E (cc0__attn_kernel i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12) K } := by
  refine ⟨?_, ?_, ?_, fun E K => ?run⟩
  case run =>
    sl_unfold [cc0__attn_kernel]
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, Hk⟩
    obtain rfl := B.harg2.eq_unread hf2; obtain rfl := B.harg3.eq_unread hf3; obtain rfl := B.harg4.eq_unread hf4; obtain rfl := B.harg12.eq_unread hf12
    sl_exec (disch := first | (sl_unfold_run_names; simp only [hq]; decide) | (delta k0_cond26; simp only [hq]; decide))
    sl_step
    iapply Hk
    isplitl [H2]
    · iexists _; isplitr; · ipureintro; exact B.harg2.read_unread _
      iexact H2
    isplitl [H3]
    · iexists _; isplitr; · ipureintro; exact B.harg3.read_unread _
      iexact H3
    isplitl [H4]
    · iexists _; isplitr; · ipureintro; exact B.harg4.read_unread _
      iexact H4
    isplitl [H5]; · iexists _; iexact H5
    isplitl [H6]; · iexists _; iexact H6
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    iexact H12

end Cert.Kernel.Hand

end
-- ==== Proof.K.Frame.lean ====
import proofs.«407351_j22883585753581_3_alg».proof.Proof.K.Shared
import proofs.«407351_j22883585753581_3_alg».proof.Proof.K.Run0
import proofs.«407351_j22883585753581_3_alg».proof.Proof.K.RunMid
import proofs.«407351_j22883585753581_3_alg».proof.Proof.K.Run7
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Cases

variable (c : Dev nD) (i : grid0.Coords) (B : Operands)
  (x2 : Vec F S1x1x512x64 .bf16) (x3 : Vec F S1x1x64x4096 .bf16) (x4 : Vec F S1x1x4096x64 .bf16)

def kernelRunMid (h1 : 1 ≤ (i 1).val) (h6 : (i 1).val ≤ 6) (xs12 : Vec F S8x4096 .f32) :=
  kernelRunQ c i B x2 x3 x4 xs12 (i 1).val h1 h6 rfl

theorem cover3_first (hq : (i 1).val = 0) (y : S1x1x512x64.Idx) :
    ∃ pc ∈ (kernelRun_0 c i B hq x2 x3 x4).1, y ∈ pc.1.set :=
  View.cover_of_tiledL _ S1x1x512x64.size (by sl_kernel_rfl) y

def out3_first (hq : (i 1).val = 0) : Vec F S1x1x512x64 .f32 :=
  VO0_3.read (Elt F) (VO0_3.writes (Elt F) VO0_3.junk (kernelRun_0 c i B hq x2 x3 x4).1)

theorem scover12_first (hq : (i 1).val = 0) (y : S8x4096.Idx) :
    ∃ pc ∈ (kernelRun_0 c i B hq x2 x3 x4).2.2.1, y ∈ pc.1.set :=
  View.cover_of_wholeMem _ (by sl_whole_mem) y

def sout12_first (hq : (i 1).val = 0) : Vec F S8x4096 .f32 :=
  VS0_5.read (Elt F) (VS0_5.writes (Elt F) VS0_5.junk (kernelRun_0 c i B hq x2 x3 x4).2.2.1)

theorem cover3_q (xs12 : Vec F S8x4096 .f32) (y : S1x1x512x64.Idx) : (q : ℕ) → (h1 : 1 ≤ q) → (h6 : q ≤ 6) → (hq : (i 1).val = q) →
    ∃ pc ∈ (kernelRunQ c i B x2 x3 x4 xs12 q h1 h6 hq).1, y ∈ pc.1.set
  | 1, _, _, _ | 2, _, _, _ | 3, _, _, _ | 4, _, _, _ | 5, _, _, _ | 6, _, _, _ =>
    View.cover_of_tiledL _ S1x1x512x64.size (by sl_kernel_rfl) y
  | 0, h, _, _ => absurd h (by decide)
  | _ + 7, _, h, _ => absurd h (by omega)

theorem cover3_mid (h1 : 1 ≤ (i 1).val) (h6 : (i 1).val ≤ 6) (xs12 : Vec F S8x4096 .f32) (y : S1x1x512x64.Idx) :
    ∃ pc ∈ (kernelRunMid c i B x2 x3 x4 h1 h6 xs12).1, y ∈ pc.1.set :=
  cover3_q c i B x2 x3 x4 xs12 y _ h1 h6 rfl

def out3_mid (h1 : 1 ≤ (i 1).val) (h6 : (i 1).val ≤ 6) (xs12 : Vec F S8x4096 .f32) : Vec F S1x1x512x64 .f32 :=
  VO0_3.read (Elt F) (VO0_3.writes (Elt F) VO0_3.junk (kernelRunMid c i B x2 x3 x4 h1 h6 xs12).1)

def sout12_mid (h1 : 1 ≤ (i 1).val) (h6 : (i 1).val ≤ 6) (xs12 : Vec F S8x4096 .f32) : Vec F S8x4096 .f32 :=
  B.arg12.view.read (Elt F) (B.arg12.view.writes (Elt F) (B.harg12.unread xs12) (kernelRunMid c i B x2 x3 x4 h1 h6 xs12).2.2.1)

theorem cover3_last (hq : (i 1).val = 7) (xs12 : Vec F S8x4096 .f32) (y : S1x1x512x64.Idx) :
    ∃ pc ∈ (kernelRun_7 c i B hq x2 x3 x4 xs12).1, y ∈ pc.1.set :=
  View.cover_of_tiledL _ S1x1x512x64.size (by sl_kernel_rfl) y

def out3_last (hq : (i 1).val = 7) (xs12 : Vec F S8x4096 .f32) : Vec F S1x1x512x64 .f32 :=
  VO0_3.read (Elt F) (VO0_3.writes (Elt F) VO0_3.junk (kernelRun_7 c i B hq x2 x3 x4 xs12).1)

theorem cover4_last (hq : (i 1).val = 7) (xs12 : Vec F S8x4096 .f32) (y : S1x1x1x4096.Idx) :
    ∃ pc ∈ (kernelRun_7 c i B hq x2 x3 x4 xs12).2.1, y ∈ pc.1.set :=
  View.cover_of_tiledL _ S1x1x1x4096.size (by sl_kernel_rfl) y

def out4_last (hq : (i 1).val = 7) (xs12 : Vec F S8x4096 .f32) : Vec F S1x1x1x4096 .f32 :=
  VO0_4.read (Elt F) (VO0_4.writes (Elt F) VO0_4.junk (kernelRun_7 c i B hq x2 x3 x4 xs12).2.1)

def sout12_last (hq : (i 1).val = 7) (xs12 : Vec F S8x4096 .f32) : Vec F S8x4096 .f32 :=
  B.arg12.view.read (Elt F) (B.arg12.view.writes (Elt F) (B.harg12.unread xs12) (kernelRun_7 c i B hq x2 x3 x4 xs12).2.2.1)

end Cases

variable (m : (ℓ : Loc nD τ sig) → Buf (Elt F) ℓ) (ρ : Dev nD → PrngReg)

theorem hq_first (t : Fin cfg0.N) (h : t.val % 8 = 0) : ((grid0.coords t) 1).val = 0 := (coords_qi t).trans h
theorem hq_last (t : Fin cfg0.N) (h : t.val % 8 = 7) : ((grid0.coords t) 1).val = 7 := (coords_qi t).trans h
theorem hq_mid1 (t : Fin cfg0.N) (h0 : t.val % 8 ≠ 0) : 1 ≤ ((grid0.coords t) 1).val := by rw [coords_qi t]; omega
theorem hq_mid6 (t : Fin cfg0.N) (h7 : t.val % 8 ≠ 7) : ((grid0.coords t) 1).val ≤ 6 := by
  rw [coords_qi t]; have := qi_lt t; omega

def out4_idle : Vec F S1x1x1x4096 .f32 := VO0_4.read (Elt F) VO0_4.junk

section Steps

variable (c : Dev nD) (t : Fin cfg0.N) (x2 : Vec F S1x1x512x64 .bf16) (x3 : Vec F S1x1x64x4096 .bf16) (x4 : Vec F S1x1x4096x64 .bf16)
  (xs12 : Vec F S8x4096 .f32)

def stepFirst (h0 : t.val % 8 = 0) : Vec F S1x1x512x64 .f32 × Vec F S1x1x1x4096 .f32 × Vec F S8x4096 .f32 :=
  (out3_first c (grid0.coords t) (operandsAt t) x2 x3 x4 (hq_first t h0), out4_idle,
    sout12_first c (grid0.coords t) (operandsAt t) x2 x3 x4 (hq_first t h0))

def stepLast (h7 : t.val % 8 = 7) : Vec F S1x1x512x64 .f32 × Vec F S1x1x1x4096 .f32 × Vec F S8x4096 .f32 :=
  (out3_last c (grid0.coords t) (operandsAt t) x2 x3 x4 (hq_last t h7) xs12,
    out4_last c (grid0.coords t) (operandsAt t) x2 x3 x4 (hq_last t h7) xs12,
    sout12_last c (grid0.coords t) (operandsAt t) x2 x3 x4 (hq_last t h7) xs12)

def stepMid (h0 : t.val % 8 ≠ 0) (h7 : t.val % 8 ≠ 7) : Vec F S1x1x512x64 .f32 × Vec F S1x1x1x4096 .f32 × Vec F S8x4096 .f32 :=
  (out3_mid c (grid0.coords t) (operandsAt t) x2 x3 x4 (hq_mid1 t h0) (hq_mid6 t h7) xs12, out4_idle,
    sout12_mid c (grid0.coords t) (operandsAt t) x2 x3 x4 (hq_mid1 t h0) (hq_mid6 t h7) xs12)

/-- What one grid point leaves in the output block, the column-sum block and the scratch, by the point's tile. -/
def stepAt : Vec F S1x1x512x64 .f32 × Vec F S1x1x1x4096 .f32 × Vec F S8x4096 .f32 :=
  if h0 : t.val % 8 = 0 then stepFirst c t x2 x3 x4 h0
  else if h7 : t.val % 8 = 7 then stepLast c t x2 x3 x4 xs12 h7 else stepMid c t x2 x3 x4 xs12 h0 h7

theorem stepAt_first (h0 : t.val % 8 = 0) : stepAt c t x2 x3 x4 xs12 = stepFirst c t x2 x3 x4 h0 := by
  unfold stepAt; rw [dif_pos h0]

theorem stepAt_last (h7 : t.val % 8 = 7) : stepAt c t x2 x3 x4 xs12 = stepLast c t x2 x3 x4 xs12 h7 := by
  unfold stepAt; rw [dif_neg (by omega : ¬ t.val % 8 = 0), dif_pos h7]

theorem stepAt_mid (h0 : t.val % 8 ≠ 0) (h7 : t.val % 8 ≠ 7) : stepAt c t x2 x3 x4 xs12 = stepMid c t x2 x3 x4 xs12 h0 h7 := by
  unfold stepAt; rw [dif_neg h0, dif_neg h7]

end Steps

/-- The same three contents after point `n`, each point starting from the scratch the point before it left. -/
def outsAt0 (c : Dev nD) : (n : ℕ) → n < cfg0.N → Vec F S1x1x512x64 .f32 × Vec F S1x1x1x4096 .f32 × Vec F S8x4096 .f32
  | 0, hn => stepAt c ⟨0, hn⟩ (iblk m c 0 ⟨0, hn⟩) (iblk m c 1 ⟨0, hn⟩) (iblk m c 2 ⟨0, hn⟩) (VS0_5.read (Elt F) VS0_5.junk)
  | n + 1, hn => stepAt c ⟨n + 1, hn⟩ (iblk m c 0 ⟨n + 1, hn⟩) (iblk m c 1 ⟨n + 1, hn⟩) (iblk m c 2 ⟨n + 1, hn⟩)
      (outsAt0 c n (Nat.lt_of_succ_lt hn)).2.2

abbrev prev12 (c : Dev nD) (t : Fin cfg0.N) : Vec F S8x4096 .f32 :=
  (outsAt0 m c (t.val - 1) (Nat.lt_of_le_of_lt (Nat.sub_le _ _) t.isLt)).2.2

theorem outsAt0_pos (c : Dev nD) (t : Fin cfg0.N) (hz : t.val ≠ 0) :
    outsAt0 m c t.val t.isLt = stepAt c t (iblk m c 0 t) (iblk m c 1 t) (iblk m c 2 t) (prev12 m c t) := by
  obtain ⟨n, hn⟩ := t
  cases n with
  | zero => exact absurd rfl hz
  | succ n => rw [outsAt0]; rfl

theorem outsAt0_first (c : Dev nD) (t : Fin cfg0.N) (h0 : t.val % 8 = 0) :
    outsAt0 m c t.val t.isLt = stepFirst c t (iblk m c 0 t) (iblk m c 1 t) (iblk m c 2 t) h0 := by
  by_cases hz : t.val = 0
  · obtain ⟨n, hn⟩ := t
    obtain rfl : n = 0 := hz
    rw [outsAt0]; exact stepAt_first c _ _ _ _ _ h0
  · rw [outsAt0_pos m c t hz]; exact stepAt_first c _ _ _ _ _ h0

theorem outsAt0_last (c : Dev nD) (t : Fin cfg0.N) (h7 : t.val % 8 = 7) :
    outsAt0 m c t.val t.isLt = stepLast c t (iblk m c 0 t) (iblk m c 1 t) (iblk m c 2 t) (prev12 m c t) h7 := by
  rw [outsAt0_pos m c t (by omega)]; exact stepAt_last c _ _ _ _ _ h7

theorem outsAt0_mid (c : Dev nD) (t : Fin cfg0.N) (h0 : t.val % 8 ≠ 0) (h7 : t.val % 8 ≠ 7) :
    outsAt0 m c t.val t.isLt = stepMid c t (iblk m c 0 t) (iblk m c 1 t) (iblk m c 2 t) (prev12 m c t) h0 h7 := by
  rw [outsAt0_pos m c t (by omega)]; exact stepAt_mid c _ _ _ _ _ h0 h7

def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d)
        ∗ (∃ d, owns (c : Thread nD τ) scM0_2 fullShare d) ∗ (∃ d, owns (c : Thread nD τ) scM0_3 fullShare d)
        ∗ (∃ d, owns (c : Thread nD τ) scM0_4 fullShare d)
        ∗ owns (c : Thread nD τ) scM0_5 fullShare ((outsAt0 m c n hn).2.2))
      ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d)
        ∗ (∃ d, owns (c : Thread nD τ) scM0_2 fullShare d) ∗ (∃ d, owns (c : Thread nD τ) scM0_3 fullShare d)
        ∗ (∃ d, owns (c : Thread nD τ) scM0_4 fullShare d)
        ∗ owns (c : Thread nD τ) scM0_5 fullShare ((outsAt0 m c n hn).2.2))
      ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d)
        ∗ (∃ d, owns (c : Thread nD τ) scM0_2 fullShare d) ∗ (∃ d, owns (c : Thread nD τ) scM0_3 fullShare d)
        ∗ (∃ d, owns (c : Thread nD τ) scM0_4 fullShare d)
        ∗ owns (c : Thread nD τ) scM0_5 fullShare ((outsAt0 m c (n - 1) (by omega)).2.2))
      ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare ((outsAt0 m c t.val t.isLt).1) := by
  unfold Dat.leavesExact; rw [liveAt0_3 t, after0_3]

theorem leaves0_4_last (c : Dev nD) (t : Fin cfg0.N) (h7 : t.val % 8 = 7) :
    (dats m 0 c).leavesExact 4 t = owns (c : Thread nD τ) (ms0_4 t) fullShare ((outsAt0 m c t.val t.isLt).2.1) := by
  unfold Dat.leavesExact; rw [liveAt0_4 t h7, after0_4]

theorem leaves0_4_idle (c : Dev nD) (t : Fin cfg0.N) (h7 : t.val % 8 ≠ 7) :
    (dats m 0 c).leavesExact 4 t = iprop(∃ d, owns (c : Thread nD τ) (ms0_4 t) fullShare ((dats m 0 c).before 4 t d)) :=
  Dat.leavesExact_idle (dats m 0 c) 4 t (idleAt0_4 t h7) (noFlush0_4 t h7)

set_option maxHeartbeats 4800000 in

/-- The body at point `t` takes the contents named after `t` points to those named after `t + 1`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  by_cases h0 : t.val % 8 = 0
  · rw [leaves0_4_idle m c t (by omega), outsAt0_first m c t h0]
    dsimp only [stepFirst]
    by_cases hz : t.val = 0
    · rw [PhiS_castSucc m c t, PhiS_zero m c _ _ hz, PhiA0_eq]
      iintro ⟨⟨⟨HS0, HS1, HS2, HS3, HS4, HS5⟩, Hg⟩, Ho, ⟨%d0, H0⟩, ⟨%d1, H1⟩, ⟨%d2, H2⟩, ⟨%d3, H3⟩, ⟨%d4, H4⟩⟩
      iapply ((kernelRun_0 c (grid0.coords t) (operandsAt t) (hq_first t h0) (iblk m c 0 t) (iblk m c 1 t) (iblk m c 2 t)).2.2.2 ((dats m 0 c).before 4 t d4) Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, ⟨%e3, H3⟩, H4, HS0, HS1, HS2, HS3, HS4, ⟨%e12, HS5⟩⟩
      isplitl [HS0 HS1 HS2 HS3 HS4 HS5 Hg]
      · isplitr [Hg]
        · isplitl [HS0]; · iexact HS0
          isplitl [HS1]; · iexact HS1
          isplitl [HS2]; · iexact HS2
          isplitl [HS3]; · iexact HS3
          isplitl [HS4]; · iexact HS4
          unfold owns sout12_first; iexists _; isplitr
          swap; · iexact HS5
          ipureintro; exact View.read_writes_of_cover _ _ _ _ _ (scover12_first c _ _ _ _ _ _)
        iexact Hg
      isplitl [Ho]; · iexact Ho
      isplitl [H0]; · iexact H0
      isplitl [H1]; · iexact H1
      isplitl [H2]; · iexact H2
      isplitl [H3]
      · unfold owns out3_first; iexists _; isplitr
        swap; · iexact H3
        ipureintro; exact View.read_writes_of_cover _ _ _ _ _ (cover3_first c _ _ _ _ _ _)
      iexists _; iexact H4
    · rw [PhiS_castSucc m c t, PhiS_pos m c _ _ hz]
      iintro ⟨⟨⟨HS0, HS1, HS2, HS3, HS4, HS5⟩, Hg⟩, Ho, ⟨%d0, H0⟩, ⟨%d1, H1⟩, ⟨%d2, H2⟩, ⟨%d3, H3⟩, ⟨%d4, H4⟩⟩
      iapply ((kernelRun_0 c (grid0.coords t) (operandsAt t) (hq_first t h0) (iblk m c 0 t) (iblk m c 1 t) (iblk m c 2 t)).2.2.2 ((dats m 0 c).before 4 t d4) Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      isplitl [HS2]; · iexact HS2
      isplitl [HS3]; · iexact HS3
      isplitl [HS4]; · iexact HS4
      isplitl [HS5]; · iexists _; iexact HS5
      iintro ⟨H0, H1, H2, ⟨%e3, H3⟩, H4, HS0, HS1, HS2, HS3, HS4, ⟨%e12, HS5⟩⟩
      isplitl [HS0 HS1 HS2 HS3 HS4 HS5 Hg]
      · isplitr [Hg]
        · isplitl [HS0]; · iexact HS0
          isplitl [HS1]; · iexact HS1
          isplitl [HS2]; · iexact HS2
          isplitl [HS3]; · iexact HS3
          isplitl [HS4]; · iexact HS4
          unfold owns sout12_first; iexists _; isplitr
          swap; · iexact HS5
          ipureintro; exact View.read_writes_of_cover _ _ _ _ _ (scover12_first c _ _ _ _ _ _)
        iexact Hg
      isplitl [Ho]; · iexact Ho
      isplitl [H0]; · iexact H0
      isplitl [H1]; · iexact H1
      isplitl [H2]; · iexact H2
      isplitl [H3]
      · unfold owns out3_first; iexists _; isplitr
        swap; · iexact H3
        ipureintro; exact View.read_writes_of_cover _ _ _ _ _ (cover3_first c _ _ _ _ _ _)
      iexists _; iexact H4
  · by_cases h7 : t.val % 8 = 7
    · rw [leaves0_4_last m c t h7, outsAt0_last m c t h7]
      have hz : t.val ≠ 0 := by omega
      rw [PhiS_castSucc m c t, PhiS_pos m c _ _ hz]
      dsimp only [stepLast]
      iintro ⟨⟨⟨HS0, HS1, HS2, HS3, HS4, HS5⟩, Hg⟩, Ho, ⟨%d0, H0⟩, ⟨%d1, H1⟩, ⟨%d2, H2⟩, ⟨%d3, H3⟩, ⟨%d4, H4⟩⟩
      iapply ((kernelRun_7 c (grid0.coords t) (operandsAt t) (hq_last t h7) (iblk m c 0 t) (iblk m c 1 t) (iblk m c 2 t) (prev12 m c t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, ⟨%e3, H3⟩, ⟨%e4, H4⟩, HS0, HS1, HS2, HS3, HS4, HS5⟩
      isplitl [HS0 HS1 HS2 HS3 HS4 HS5 Hg]
      · isplitr [Hg]
        · isplitl [HS0]; · iexact HS0
          isplitl [HS1]; · iexact HS1
          isplitl [HS2]; · iexact HS2
          isplitl [HS3]; · iexact HS3
          isplitl [HS4]; · iexact HS4
          unfold owns sout12_last; iexists _; isplitr
          swap; · iexact HS5
          ipureintro; rfl
        iexact Hg
      isplitl [Ho]; · iexact Ho
      isplitl [H0]; · iexact H0
      isplitl [H1]; · iexact H1
      isplitl [H2]; · iexact H2
      isplitl [H3]
      · unfold owns out3_last; iexists _; isplitr
        swap; · iexact H3
        ipureintro; exact View.read_writes_of_cover _ _ _ _ _ (cover3_last c _ _ _ _ _ _ _)
      unfold owns out4_last; iexists _; isplitr
      swap; · iexact H4
      ipureintro; exact View.read_writes_of_cover _ _ _ _ _ (cover4_last c _ _ _ _ _ _ _)
    · rw [leaves0_4_idle m c t h7, outsAt0_mid m c t h0 h7]
      have hz : t.val ≠ 0 := by omega
      rw [PhiS_castSucc m c t, PhiS_pos m c _ _ hz]
      dsimp only [stepMid]
      iintro ⟨⟨⟨HS0, HS1, HS2, HS3, HS4, HS5⟩, Hg⟩, Ho, ⟨%d0, H0⟩, ⟨%d1, H1⟩, ⟨%d2, H2⟩, ⟨%d3, H3⟩, ⟨%d4, H4⟩⟩
      iapply ((kernelRunMid c (grid0.coords t) (operandsAt t) (iblk m c 0 t) (iblk m c 1 t) (iblk m c 2 t) (hq_mid1 t h0) (hq_mid6 t h7) (prev12 m c t)).2.2.2 ((dats m 0 c).before 4 t d4) Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, ⟨%e3, H3⟩, H4, HS0, HS1, HS2, HS3, HS4, HS5⟩
      isplitl [HS0 HS1 HS2 HS3 HS4 HS5 Hg]
      · isplitr [Hg]
        · isplitl [HS0]; · iexact HS0
          isplitl [HS1]; · iexact HS1
          isplitl [HS2]; · iexact HS2
          isplitl [HS3]; · iexact HS3
          isplitl [HS4]; · iexact HS4
          unfold owns sout12_mid; iexists _; isplitr
          swap; · iexact HS5
          ipureintro; rfl
        iexact Hg
      isplitl [Ho]; · iexact Ho
      isplitl [H0]; · iexact H0
      isplitl [H1]; · iexact H1
      isplitl [H2]; · iexact H2
      isplitl [H3]
      · unfold owns out3_mid; iexists _; isplitr
        swap; · iexact H3
        ipureintro; exact View.read_writes_of_cover _ _ _ _ _ (cover3_mid c _ _ _ _ _ _ _ _)
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitr [Hg]
  · isplitl [HS0]; · iexact HS0
    isplitl [HS1]; · iexact HS1
    isplitl [HS2]; · iexact HS2
    isplitl [HS3]; · iexact HS3
    isplitl [HS4]; · iexact HS4
    iexists _; iexact HS5
  iexact Hg

theorem hout (c : Dev nD) : (dats m 0 c).Φ (Fin.last cfg0.N) ⊢ Pipeline.ΦA spec0 c :=
  Phi_out m c _ (by rw [Fin.val_last]; have : cfg0.N = 128 := N_eq; omega)

set_option backward.isDefEq.respectTransparency.types false in

theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KI.Shared.lean ====
import proofs.«407351_j22883585753581_3_alg».proof.Proof.Gen.KernelIdeal.Frame
import proofs.«407351_j22883585753581_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's eleven buffers, each held whole. -/
structure Operands where
  arg2 : Memref sig .tc .vmem S1x1x512x64 .bf16
  harg2 : arg2.IsWhole
  arg3 : Memref sig .tc .vmem S1x1x64x4096 .bf16
  harg3 : arg3.IsWhole
  arg4 : Memref sig .tc .vmem S1x1x4096x64 .bf16
  harg4 : arg4.IsWhole
  arg5 : Memref sig .tc .vmem S1x1x512x64 .f32
  harg5 : arg5.IsWhole
  arg6 : Memref sig .tc .vmem S1x1x1x4096 .f32
  harg6 : arg6.IsWhole
  arg7 : Memref sig .tc .vmem S512x1 .f32
  harg7 : arg7.IsWhole
  arg8 : Memref sig .tc .vmem S512x1 .f32
  harg8 : arg8.IsWhole
  arg9 : Memref sig .tc .vmem S512x64 .f32
  harg9 : arg9.IsWhole
  arg10 : Memref sig .tc .vmem S512x4096 .bf16
  harg10 : arg10.IsWhole
  arg11 : Memref sig .tc .vmem S512x8 .f32
  harg11 : arg11.IsWhole
  arg12 : Memref sig .tc .vmem S8x4096 .f32
  harg12 : arg12.IsWhole

theorem N_eq : cfg0.N = 128 := N_0

theorem coords_qi : ∀ t : Fin cfg0.N, ((grid0.coords t) 1).val = t.val % 8 :=
  (by decide +kernel : ∀ t : Fin grid0.N, ((grid0.coords t) 1).val = t.val % 8)

theorem qi_lt (t : Fin cfg0.N) : t.val % 8 < 8 := Nat.mod_lt _ (by decide)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4 : ∀ t : Fin cfg0.N, t.val % 8 ≠ 7 → cfg0.idle 4 (grid0.coords t) = true :=
  (by decide +kernel : ∀ t : Fin grid0.N, t.val % 8 ≠ 7 → cfg0.idle 4 (grid0.coords t) = true)

theorem liveAt0_4 : ∀ t : Fin cfg0.N, t.val % 8 = 7 → cfg0.idle 4 (grid0.coords t) = false :=
  (by decide +kernel : ∀ t : Fin grid0.N, t.val % 8 = 7 → cfg0.idle 4 (grid0.coords t) = false)

theorem noFlush0_4 (t : Fin cfg0.N) (h : t.val % 8 ≠ 7) : (cfg0.win 4).flush t = false :=
  Bool.eq_false_iff.mpr fun hf => h ((flush0_4 t).mp hf)

abbrev ms0_0 (t : Fin cfg0.N) : Memref sig .tc .vmem S1x1x512x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x64x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1x4096 .f32 := win0_4.stage (cfg0.slots t 4)
abbrev hs0_4 (t : Fin cfg0.N) : (ms0_4 t).IsWhole := hstage0_4 ((cfg0.slots t 4).cast nbuf0_4)

abbrev scM0_0 : Memref sig .tc .vmem S512x1 .f32 := Memref.whole cc0_scratch0
abbrev scM0_1 : Memref sig .tc .vmem S512x1 .f32 := Memref.whole cc0_scratch1
abbrev scM0_2 : Memref sig .tc .vmem S512x64 .f32 := Memref.whole cc0_scratch2
abbrev scM0_3 : Memref sig .tc .vmem S512x4096 .bf16 := Memref.whole cc0_scratch3
abbrev scM0_4 : Memref sig .tc .vmem S512x8 .f32 := Memref.whole cc0_scratch4
abbrev scM0_5 : Memref sig .tc .vmem S8x4096 .f32 := Memref.whole cc0_scratch5
theorem hscM0_5 : scM0_5.IsWhole := Memref.isWhole_whole _

/-- The body's operands at grid point `t`. -/
abbrev operandsAt (t : Fin cfg0.N) : Operands :=
  ⟨ms0_0 t, hs0_0 t, ms0_1 t, hs0_1 t, ms0_2 t, hs0_2 t, ms0_3 t, hs0_3 t, ms0_4 t, hs0_4 t, scM0_0, Memref.isWhole_whole _,
    scM0_1, Memref.isWhole_whole _, scM0_2, Memref.isWhole_whole _, scM0_3, Memref.isWhole_whole _, scM0_4, Memref.isWhole_whole _,
    scM0_5, hscM0_5⟩

abbrev VS0_5 : View sig .tc .vmem S8x4096 .f32 := scM0_5.view

abbrev VO0_3 : View sig .tc .vmem S1x1x512x64 .f32 := (Memref.whole cc0_stg3_0 : Memref sig .tc .vmem S1x1x512x64 .f32).view
abbrev VO0_4 : View sig .tc .vmem S1x1x1x4096 .f32 := (Memref.whole cc0_stg4_0 : Memref sig .tc .vmem S1x1x1x4096 .f32).view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)
          ∗ (∃ d, owns (c : Thread nD τ) scM0_4 fullShare d) ∗ (∃ d, owns (c : Thread nD τ) scM0_5 fullShare d))
        ∗ (∃ r, prngReg c r)) := by
  unfold Pipeline.ΦA; rw [scopedRest0_eq]; simp only [scM0_0, scM0_1, scM0_2, scM0_3, scM0_4, scM0_5, owns_whole]; try rfl

end Cert.KernelIdeal.Hand

end
-- ==== Proof.KI.Run0.lean ====
import proofs.«407351_j22883585753581_3_alg».proof.Proof.KI.Shared
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in

/-- Tile 0 sets the column-sum scratch to zero before it adds into it, so the scratch may enter at any contents. -/
noncomputable def kernelRun_0 (c : Dev nD) (i : grid0.Coords) (B : Operands) (hq : (i 1).val = 0)
    (x2 : Vec F S1x1x512x64 .bf16) (x3 : Vec F S1x1x64x4096 .bf16) (x4 : Vec F S1x1x4096x64 .bf16) :
    Σ' (L5 : List (View.Piece (Elt F) S1x1x512x64 .f32)) (L6 : List (View.Piece (Elt F) S1x1x1x4096 .f32)), { LS12 : List (View.Piece (Elt F) S8x4096 .f32) //
      ∀ (xi6 : Vec F S1x1x1x4096 .f32) (E : Set ℕ) (K : PUnit → sProp 𝕄),
        iprop(owns (c : Thread nD τ) B.arg2 fullShare x2 ∗ owns (c : Thread nD τ) B.arg3 fullShare x3 ∗ owns (c : Thread nD τ) B.arg4 fullShare x4
            ∗ (∃ d, owns (c : Thread nD τ) B.arg5 fullShare d)
            ∗ owns (c : Thread nD τ) B.arg6 fullShare xi6
            ∗ (∃ d, owns (c : Thread nD τ) B.arg7 fullShare d) ∗ (∃ d, owns (c : Thread nD τ) B.arg8 fullShare d) ∗ (∃ d, owns (c : Thread nD τ) B.arg9 fullShare d) ∗ (∃ d, owns (c : Thread nD τ) B.arg10 fullShare d) ∗ (∃ d, owns (c : Thread nD τ) B.arg11 fullShare d)
            ∗ (∃ d, owns (c : Thread nD τ) B.arg12 fullShare d)
            ∗ (iprop(owns (c : Thread nD τ) B.arg2 fullShare x2 ∗ owns (c : Thread nD τ) B.arg3 fullShare x3 ∗ owns (c : Thread nD τ) B.arg4 fullShare x4
                  ∗ (∃ f, B.arg5.view.loc (c : Thread nD τ) ↦[B.arg5.view.set]{fullShare} B.arg5.view.writes (Elt F) f L5)
                  ∗ owns (c : Thread nD τ) B.arg6 fullShare xi6
                  ∗ (∃ d, owns (c : Thread nD τ) B.arg7 fullShare d) ∗ (∃ d, owns (c : Thread nD τ) B.arg8 fullShare d) ∗ (∃ d, owns (c : Thread nD τ) B.arg9 fullShare d) ∗ (∃ d, owns (c : Thread nD τ) B.arg10 fullShare d) ∗ (∃ d, owns (c : Thread nD τ) B.arg11 fullShare d)
                  ∗ (∃ f, B.arg12.view.loc (c : Thread nD τ) ↦[B.arg12.view.set]{fullShare} B.arg12.view.writes (Elt F) f LS12)) -∗ K ⟨⟩))
          ⊢ wp frame (wpE (defs₀ (F := F)) Variants.none c none) E (cc0__attn_kernel i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12) K } := by
  refine ⟨?_, [], ?_, fun xi6 E K => ?run⟩
  case run =>
    sl_unfold [cc0__attn_kernel]
    unfold owns
    iintro ⟨⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := B.harg2.eq_unread hf2; obtain rfl := B.harg3.eq_unread hf3; obtain rfl := B.harg4.eq_unread hf4; obtain rfl := B.harg6.eq_unread hf6
    sl_exec (disch := first | (sl_unfold_run_names; simp only [hq]; decide) | (delta k0_cond26; simp only [hq]; decide))
    sl_step
    iapply Hk
    isplitl [H2]
    · iexists _; isplitr; · ipureintro; exact B.harg2.read_unread _
      iexact H2
    isplitl [H3]
    · iexists _; isplitr; · ipureintro; exact B.harg3.read_unread _
      iexact H3
    isplitl [H4]
    · iexists _; isplitr; · ipureintro; exact B.harg4.read_unread _
      iexact H4
    isplitl [H5]; · iexists _; iexact H5
    isplitl [H6]
    · iexists _; isplitr; · ipureintro; exact B.harg6.read_unread _
      iexact H6
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    iexists _; iexact H12

end Cert.KernelIdeal.Hand

end
-- ==== Proof.KI.RunMid.lean ====
import proofs.«407351_j22883585753581_3_alg».proof.Proof.KI.Shared
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (B : Operands)
  (x2 : Vec F S1x1x512x64 .bf16) (x3 : Vec F S1x1x64x4096 .bf16) (x4 : Vec F S1x1x4096x64 .bf16) (xs12 : Vec F S8x4096 .f32)

set_option maxHeartbeats 24000000 in
/-- Tiles 1 to 6 share one statement: their runs differ only in which comparisons of the tile index with a literal hold. -/
def kernelRunQ : (q : ℕ) → 1 ≤ q → q ≤ 6 → (i 1).val = q →
    Σ' (L5 : List (View.Piece (Elt F) S1x1x512x64 .f32)) (L6 : List (View.Piece (Elt F) S1x1x1x4096 .f32)), { LS12 : List (View.Piece (Elt F) S8x4096 .f32) //
      ∀ (xi6 : Vec F S1x1x1x4096 .f32) (E : Set ℕ) (K : PUnit → sProp 𝕄),
        iprop(owns (c : Thread nD τ) B.arg2 fullShare x2 ∗ owns (c : Thread nD τ) B.arg3 fullShare x3 ∗ owns (c : Thread nD τ) B.arg4 fullShare x4
            ∗ (∃ d, owns (c : Thread nD τ) B.arg5 fullShare d)
            ∗ owns (c : Thread nD τ) B.arg6 fullShare xi6
            ∗ (∃ d, owns (c : Thread nD τ) B.arg7 fullShare d) ∗ (∃ d, owns (c : Thread nD τ) B.arg8 fullShare d) ∗ (∃ d, owns (c : Thread nD τ) B.arg9 fullShare d) ∗ (∃ d, owns (c : Thread nD τ) B.arg10 fullShare d) ∗ (∃ d, owns (c : Thread nD τ) B.arg11 fullShare d)
            ∗ owns (c : Thread nD τ) B.arg12 fullShare xs12
            ∗ (iprop(owns (c : Thread nD τ) B.arg2 fullShare x2 ∗ owns (c : Thread nD τ) B.arg3 fullShare x3 ∗ owns (c : Thread nD τ) B.arg4 fullShare x4
                  ∗ (∃ f, B.arg5.view.loc (c : Thread nD τ) ↦[B.arg5.view.set]{fullShare} B.arg5.view.writes (Elt F) f L5)
                  ∗ owns (c : Thread nD τ) B.arg6 fullShare xi6
                  ∗ (∃ d, owns (c : Thread nD τ) B.arg7 fullShare d) ∗ (∃ d, owns (c : Thread nD τ) B.arg8 fullShare d) ∗ (∃ d, owns (c : Thread nD τ) B.arg9 fullShare d) ∗ (∃ d, owns (c : Thread nD τ) B.arg10 fullShare d) ∗ (∃ d, owns (c : Thread nD τ) B.arg11 fullShare d)
                  ∗ B.arg12.view.loc (c : Thread nD τ) ↦[B.arg12.view.set]{fullShare} B.arg12.view.writes (Elt F) (B.harg12.unread xs12) LS12) -∗ K ⟨⟩))
          ⊢ wp frame (wpE (defs₀ (F := F)) Variants.none c none) E (cc0__attn_kernel i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12) K }
  | 1, _, _, hq | 2, _, _, hq | 3, _, _, hq | 4, _, _, hq | 5, _, _, hq | 6, _, _, hq => by
    refine ⟨?_, [], ?_, fun xi6 E K => ?run⟩
    case run =>
      sl_unfold [cc0__attn_kernel]
      unfold owns
      iintro ⟨⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, Hk⟩
      obtain rfl := B.harg2.eq_unread hf2; obtain rfl := B.harg3.eq_unread hf3; obtain rfl := B.harg4.eq_unread hf4; obtain rfl := B.harg6.eq_unread hf6; obtain rfl := B.harg12.eq_unread hf12
      sl_exec (disch := first | (sl_unfold_run_names; simp only [hq]; decide) | (delta k0_cond26; simp only [hq]; decide))
      sl_step
      iapply Hk
      isplitl [H2]
      · iexists _; isplitr; · ipureintro; exact B.harg2.read_unread _
        iexact H2
      isplitl [H3]
      · iexists _; isplitr; · ipureintro; exact B.harg3.read_unread _
        iexact H3
      isplitl [H4]
      · iexists _; isplitr; · ipureintro; exact B.harg4.read_unread _
        iexact H4
      isplitl [H5]; · iexists _; iexact H5
      isplitl [H6]
      · iexists _; isplitr; · ipureintro; exact B.harg6.read_unread _
        iexact H6
      isplitl [H7]
      · iexists _; iexists _; isplitr; swap; · iexact H7
        ipureintro; rfl
      isplitl [H8]
      · iexists _; iexists _; isplitr; swap; · iexact H8
        ipureintro; rfl
      isplitl [H9]
      · iexists _; iexists _; isplitr; swap; · iexact H9
        ipureintro; rfl
      isplitl [H10]
      · iexists _; iexists _; isplitr; swap; · iexact H10
        ipureintro; rfl
      isplitl [H11]
      · iexists _; iexists _; isplitr; swap; · iexact H11
        ipureintro; rfl
      iexact H12
  | 0, h, _, _ => absurd h (by decide)
  | _ + 7, _, h, _ => absurd h (by omega)

end Cert.KernelIdeal.Hand

end
-- ==== Proof.KI.Run7.lean ====
import proofs.«407351_j22883585753581_3_alg».proof.Proof.KI.Shared
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in

/-- Tile 7 takes all eight chunks and then copies the finished first row of the scratch to the column-sum output. -/
noncomputable def kernelRun_7 (c : Dev nD) (i : grid0.Coords) (B : Operands) (hq : (i 1).val = 7)
    (x2 : Vec F S1x1x512x64 .bf16) (x3 : Vec F S1x1x64x4096 .bf16) (x4 : Vec F S1x1x4096x64 .bf16) (xs12 : Vec F S8x4096 .f32) :
    Σ' (L5 : List (View.Piece (Elt F) S1x1x512x64 .f32)) (L6 : List (View.Piece (Elt F) S1x1x1x4096 .f32)), { LS12 : List (View.Piece (Elt F) S8x4096 .f32) //
      ∀ (E : Set ℕ) (K : PUnit → sProp 𝕄),
        iprop(owns (c : Thread nD τ) B.arg2 fullShare x2 ∗ owns (c : Thread nD τ) B.arg3 fullShare x3 ∗ owns (c : Thread nD τ) B.arg4 fullShare x4
            ∗ (∃ d, owns (c : Thread nD τ) B.arg5 fullShare d)
            ∗ (∃ d, owns (c : Thread nD τ) B.arg6 fullShare d)
            ∗ (∃ d, owns (c : Thread nD τ) B.arg7 fullShare d) ∗ (∃ d, owns (c : Thread nD τ) B.arg8 fullShare d) ∗ (∃ d, owns (c : Thread nD τ) B.arg9 fullShare d) ∗ (∃ d, owns (c : Thread nD τ) B.arg10 fullShare d) ∗ (∃ d, owns (c : Thread nD τ) B.arg11 fullShare d)
            ∗ owns (c : Thread nD τ) B.arg12 fullShare xs12
            ∗ (iprop(owns (c : Thread nD τ) B.arg2 fullShare x2 ∗ owns (c : Thread nD τ) B.arg3 fullShare x3 ∗ owns (c : Thread nD τ) B.arg4 fullShare x4
                  ∗ (∃ f, B.arg5.view.loc (c : Thread nD τ) ↦[B.arg5.view.set]{fullShare} B.arg5.view.writes (Elt F) f L5)
                  ∗ (∃ f, B.arg6.view.loc (c : Thread nD τ) ↦[B.arg6.view.set]{fullShare} B.arg6.view.writes (Elt F) f L6)
                  ∗ (∃ d, owns (c : Thread nD τ) B.arg7 fullShare d) ∗ (∃ d, owns (c : Thread nD τ) B.arg8 fullShare d) ∗ (∃ d, owns (c : Thread nD τ) B.arg9 fullShare d) ∗ (∃ d, owns (c : Thread nD τ) B.arg10 fullShare d) ∗ (∃ d, owns (c : Thread nD τ) B.arg11 fullShare d)
                  ∗ B.arg12.view.loc (c : Thread nD τ) ↦[B.arg12.view.set]{fullShare} B.arg12.view.writes (Elt F) (B.harg12.unread xs12) LS12) -∗ K ⟨⟩))
          ⊢ wp frame (wpE (defs₀ (F := F)) Variants.none c none) E (cc0__attn_kernel i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12) K } := by
  refine ⟨?_, ?_, ?_, fun E K => ?run⟩
  case run =>
    sl_unfold [cc0__attn_kernel]
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, Hk⟩
    obtain rfl := B.harg2.eq_unread hf2; obtain rfl := B.harg3.eq_unread hf3; obtain rfl := B.harg4.eq_unread hf4; obtain rfl := B.harg12.eq_unread hf12
    sl_exec (disch := first | (sl_unfold_run_names; simp only [hq]; decide) | (delta k0_cond26; simp only [hq]; decide))
    sl_step
    iapply Hk
    isplitl [H2]
    · iexists _; isplitr; · ipureintro; exact B.harg2.read_unread _
      iexact H2
    isplitl [H3]
    · iexists _; isplitr; · ipureintro; exact B.harg3.read_unread _
      iexact H3
    isplitl [H4]
    · iexists _; isplitr; · ipureintro; exact B.harg4.read_unread _
      iexact H4
    isplitl [H5]; · iexists _; iexact H5
    isplitl [H6]; · iexists _; iexact H6
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    iexact H12

end Cert.KernelIdeal.Hand

end
-- ==== Proof.KI.Frame.lean ====
import proofs.«407351_j22883585753581_3_alg».proof.Proof.KI.Shared
import proofs.«407351_j22883585753581_3_alg».proof.Proof.KI.Run0
import proofs.«407351_j22883585753581_3_alg».proof.Proof.KI.RunMid
import proofs.«407351_j22883585753581_3_alg».proof.Proof.KI.Run7
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Cases

variable (c : Dev nD) (i : grid0.Coords) (B : Operands)
  (x2 : Vec F S1x1x512x64 .bf16) (x3 : Vec F S1x1x64x4096 .bf16) (x4 : Vec F S1x1x4096x64 .bf16)

def kernelRunMid (h1 : 1 ≤ (i 1).val) (h6 : (i 1).val ≤ 6) (xs12 : Vec F S8x4096 .f32) :=
  kernelRunQ c i B x2 x3 x4 xs12 (i 1).val h1 h6 rfl

theorem cover3_first (hq : (i 1).val = 0) (y : S1x1x512x64.Idx) :
    ∃ pc ∈ (kernelRun_0 c i B hq x2 x3 x4).1, y ∈ pc.1.set :=
  View.cover_of_tiledL _ S1x1x512x64.size (by sl_kernel_rfl) y

def out3_first (hq : (i 1).val = 0) : Vec F S1x1x512x64 .f32 :=
  VO0_3.read (Elt F) (VO0_3.writes (Elt F) VO0_3.junk (kernelRun_0 c i B hq x2 x3 x4).1)

theorem scover12_first (hq : (i 1).val = 0) (y : S8x4096.Idx) :
    ∃ pc ∈ (kernelRun_0 c i B hq x2 x3 x4).2.2.1, y ∈ pc.1.set :=
  View.cover_of_wholeMem _ (by sl_whole_mem) y

def sout12_first (hq : (i 1).val = 0) : Vec F S8x4096 .f32 :=
  VS0_5.read (Elt F) (VS0_5.writes (Elt F) VS0_5.junk (kernelRun_0 c i B hq x2 x3 x4).2.2.1)

theorem cover3_q (xs12 : Vec F S8x4096 .f32) (y : S1x1x512x64.Idx) : (q : ℕ) → (h1 : 1 ≤ q) → (h6 : q ≤ 6) → (hq : (i 1).val = q) →
    ∃ pc ∈ (kernelRunQ c i B x2 x3 x4 xs12 q h1 h6 hq).1, y ∈ pc.1.set
  | 1, _, _, _ | 2, _, _, _ | 3, _, _, _ | 4, _, _, _ | 5, _, _, _ | 6, _, _, _ =>
    View.cover_of_tiledL _ S1x1x512x64.size (by sl_kernel_rfl) y
  | 0, h, _, _ => absurd h (by decide)
  | _ + 7, _, h, _ => absurd h (by omega)

theorem cover3_mid (h1 : 1 ≤ (i 1).val) (h6 : (i 1).val ≤ 6) (xs12 : Vec F S8x4096 .f32) (y : S1x1x512x64.Idx) :
    ∃ pc ∈ (kernelRunMid c i B x2 x3 x4 h1 h6 xs12).1, y ∈ pc.1.set :=
  cover3_q c i B x2 x3 x4 xs12 y _ h1 h6 rfl

def out3_mid (h1 : 1 ≤ (i 1).val) (h6 : (i 1).val ≤ 6) (xs12 : Vec F S8x4096 .f32) : Vec F S1x1x512x64 .f32 :=
  VO0_3.read (Elt F) (VO0_3.writes (Elt F) VO0_3.junk (kernelRunMid c i B x2 x3 x4 h1 h6 xs12).1)

def sout12_mid (h1 : 1 ≤ (i 1).val) (h6 : (i 1).val ≤ 6) (xs12 : Vec F S8x4096 .f32) : Vec F S8x4096 .f32 :=
  B.arg12.view.read (Elt F) (B.arg12.view.writes (Elt F) (B.harg12.unread xs12) (kernelRunMid c i B x2 x3 x4 h1 h6 xs12).2.2.1)

theorem cover3_last (hq : (i 1).val = 7) (xs12 : Vec F S8x4096 .f32) (y : S1x1x512x64.Idx) :
    ∃ pc ∈ (kernelRun_7 c i B hq x2 x3 x4 xs12).1, y ∈ pc.1.set :=
  View.cover_of_tiledL _ S1x1x512x64.size (by sl_kernel_rfl) y

def out3_last (hq : (i 1).val = 7) (xs12 : Vec F S8x4096 .f32) : Vec F S1x1x512x64 .f32 :=
  VO0_3.read (Elt F) (VO0_3.writes (Elt F) VO0_3.junk (kernelRun_7 c i B hq x2 x3 x4 xs12).1)

theorem cover4_last (hq : (i 1).val = 7) (xs12 : Vec F S8x4096 .f32) (y : S1x1x1x4096.Idx) :
    ∃ pc ∈ (kernelRun_7 c i B hq x2 x3 x4 xs12).2.1, y ∈ pc.1.set :=
  View.cover_of_tiledL _ S1x1x1x4096.size (by sl_kernel_rfl) y

def out4_last (hq : (i 1).val = 7) (xs12 : Vec F S8x4096 .f32) : Vec F S1x1x1x4096 .f32 :=
  VO0_4.read (Elt F) (VO0_4.writes (Elt F) VO0_4.junk (kernelRun_7 c i B hq x2 x3 x4 xs12).2.1)

def sout12_last (hq : (i 1).val = 7) (xs12 : Vec F S8x4096 .f32) : Vec F S8x4096 .f32 :=
  B.arg12.view.read (Elt F) (B.arg12.view.writes (Elt F) (B.harg12.unread xs12) (kernelRun_7 c i B hq x2 x3 x4 xs12).2.2.1)

end Cases

variable (m : (ℓ : Loc nD τ sig) → Buf (Elt F) ℓ) (ρ : Dev nD → PrngReg)

theorem hq_first (t : Fin cfg0.N) (h : t.val % 8 = 0) : ((grid0.coords t) 1).val = 0 := (coords_qi t).trans h
theorem hq_last (t : Fin cfg0.N) (h : t.val % 8 = 7) : ((grid0.coords t) 1).val = 7 := (coords_qi t).trans h
theorem hq_mid1 (t : Fin cfg0.N) (h0 : t.val % 8 ≠ 0) : 1 ≤ ((grid0.coords t) 1).val := by rw [coords_qi t]; omega
theorem hq_mid6 (t : Fin cfg0.N) (h7 : t.val % 8 ≠ 7) : ((grid0.coords t) 1).val ≤ 6 := by
  rw [coords_qi t]; have := qi_lt t; omega

def out4_idle : Vec F S1x1x1x4096 .f32 := VO0_4.read (Elt F) VO0_4.junk

section Steps

variable (c : Dev nD) (t : Fin cfg0.N) (x2 : Vec F S1x1x512x64 .bf16) (x3 : Vec F S1x1x64x4096 .bf16) (x4 : Vec F S1x1x4096x64 .bf16)
  (xs12 : Vec F S8x4096 .f32)

def stepFirst (h0 : t.val % 8 = 0) : Vec F S1x1x512x64 .f32 × Vec F S1x1x1x4096 .f32 × Vec F S8x4096 .f32 :=
  (out3_first c (grid0.coords t) (operandsAt t) x2 x3 x4 (hq_first t h0), out4_idle,
    sout12_first c (grid0.coords t) (operandsAt t) x2 x3 x4 (hq_first t h0))

def stepLast (h7 : t.val % 8 = 7) : Vec F S1x1x512x64 .f32 × Vec F S1x1x1x4096 .f32 × Vec F S8x4096 .f32 :=
  (out3_last c (grid0.coords t) (operandsAt t) x2 x3 x4 (hq_last t h7) xs12,
    out4_last c (grid0.coords t) (operandsAt t) x2 x3 x4 (hq_last t h7) xs12,
    sout12_last c (grid0.coords t) (operandsAt t) x2 x3 x4 (hq_last t h7) xs12)

def stepMid (h0 : t.val % 8 ≠ 0) (h7 : t.val % 8 ≠ 7) : Vec F S1x1x512x64 .f32 × Vec F S1x1x1x4096 .f32 × Vec F S8x4096 .f32 :=
  (out3_mid c (grid0.coords t) (operandsAt t) x2 x3 x4 (hq_mid1 t h0) (hq_mid6 t h7) xs12, out4_idle,
    sout12_mid c (grid0.coords t) (operandsAt t) x2 x3 x4 (hq_mid1 t h0) (hq_mid6 t h7) xs12)

/-- What one grid point leaves in the output block, the column-sum block and the scratch, by the point's tile. -/
def stepAt : Vec F S1x1x512x64 .f32 × Vec F S1x1x1x4096 .f32 × Vec F S8x4096 .f32 :=
  if h0 : t.val % 8 = 0 then stepFirst c t x2 x3 x4 h0
  else if h7 : t.val % 8 = 7 then stepLast c t x2 x3 x4 xs12 h7 else stepMid c t x2 x3 x4 xs12 h0 h7

theorem stepAt_first (h0 : t.val % 8 = 0) : stepAt c t x2 x3 x4 xs12 = stepFirst c t x2 x3 x4 h0 := by
  unfold stepAt; rw [dif_pos h0]

theorem stepAt_last (h7 : t.val % 8 = 7) : stepAt c t x2 x3 x4 xs12 = stepLast c t x2 x3 x4 xs12 h7 := by
  unfold stepAt; rw [dif_neg (by omega : ¬ t.val % 8 = 0), dif_pos h7]

theorem stepAt_mid (h0 : t.val % 8 ≠ 0) (h7 : t.val % 8 ≠ 7) : stepAt c t x2 x3 x4 xs12 = stepMid c t x2 x3 x4 xs12 h0 h7 := by
  unfold stepAt; rw [dif_neg h0, dif_neg h7]

end Steps

/-- The same three contents after point `n`, each point starting from the scratch the point before it left. -/
def outsAt0 (c : Dev nD) : (n : ℕ) → n < cfg0.N → Vec F S1x1x512x64 .f32 × Vec F S1x1x1x4096 .f32 × Vec F S8x4096 .f32
  | 0, hn => stepAt c ⟨0, hn⟩ (iblk m c 0 ⟨0, hn⟩) (iblk m c 1 ⟨0, hn⟩) (iblk m c 2 ⟨0, hn⟩) (VS0_5.read (Elt F) VS0_5.junk)
  | n + 1, hn => stepAt c ⟨n + 1, hn⟩ (iblk m c 0 ⟨n + 1, hn⟩) (iblk m c 1 ⟨n + 1, hn⟩) (iblk m c 2 ⟨n + 1, hn⟩)
      (outsAt0 c n (Nat.lt_of_succ_lt hn)).2.2

abbrev prev12 (c : Dev nD) (t : Fin cfg0.N) : Vec F S8x4096 .f32 :=
  (outsAt0 m c (t.val - 1) (Nat.lt_of_le_of_lt (Nat.sub_le _ _) t.isLt)).2.2

theorem outsAt0_pos (c : Dev nD) (t : Fin cfg0.N) (hz : t.val ≠ 0) :
    outsAt0 m c t.val t.isLt = stepAt c t (iblk m c 0 t) (iblk m c 1 t) (iblk m c 2 t) (prev12 m c t) := by
  obtain ⟨n, hn⟩ := t
  cases n with
  | zero => exact absurd rfl hz
  | succ n => rw [outsAt0]; rfl

theorem outsAt0_first (c : Dev nD) (t : Fin cfg0.N) (h0 : t.val % 8 = 0) :
    outsAt0 m c t.val t.isLt = stepFirst c t (iblk m c 0 t) (iblk m c 1 t) (iblk m c 2 t) h0 := by
  by_cases hz : t.val = 0
  · obtain ⟨n, hn⟩ := t
    obtain rfl : n = 0 := hz
    rw [outsAt0]; exact stepAt_first c _ _ _ _ _ h0
  · rw [outsAt0_pos m c t hz]; exact stepAt_first c _ _ _ _ _ h0

theorem outsAt0_last (c : Dev nD) (t : Fin cfg0.N) (h7 : t.val % 8 = 7) :
    outsAt0 m c t.val t.isLt = stepLast c t (iblk m c 0 t) (iblk m c 1 t) (iblk m c 2 t) (prev12 m c t) h7 := by
  rw [outsAt0_pos m c t (by omega)]; exact stepAt_last c _ _ _ _ _ h7

theorem outsAt0_mid (c : Dev nD) (t : Fin cfg0.N) (h0 : t.val % 8 ≠ 0) (h7 : t.val % 8 ≠ 7) :
    outsAt0 m c t.val t.isLt = stepMid c t (iblk m c 0 t) (iblk m c 1 t) (iblk m c 2 t) (prev12 m c t) h0 h7 := by
  rw [outsAt0_pos m c t (by omega)]; exact stepAt_mid c _ _ _ _ _ h0 h7

def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d)
        ∗ (∃ d, owns (c : Thread nD τ) scM0_2 fullShare d) ∗ (∃ d, owns (c : Thread nD τ) scM0_3 fullShare d)
        ∗ (∃ d, owns (c : Thread nD τ) scM0_4 fullShare d)
        ∗ owns (c : Thread nD τ) scM0_5 fullShare ((outsAt0 m c n hn).2.2))
      ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d)
        ∗ (∃ d, owns (c : Thread nD τ) scM0_2 fullShare d) ∗ (∃ d, owns (c : Thread nD τ) scM0_3 fullShare d)
        ∗ (∃ d, owns (c : Thread nD τ) scM0_4 fullShare d)
        ∗ owns (c : Thread nD τ) scM0_5 fullShare ((outsAt0 m c n hn).2.2))
      ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d)
        ∗ (∃ d, owns (c : Thread nD τ) scM0_2 fullShare d) ∗ (∃ d, owns (c : Thread nD τ) scM0_3 fullShare d)
        ∗ (∃ d, owns (c : Thread nD τ) scM0_4 fullShare d)
        ∗ owns (c : Thread nD τ) scM0_5 fullShare ((outsAt0 m c (n - 1) (by omega)).2.2))
      ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare ((outsAt0 m c t.val t.isLt).1) := by
  unfold Dat.leavesExact; rw [liveAt0_3 t, after0_3]

theorem leaves0_4_last (c : Dev nD) (t : Fin cfg0.N) (h7 : t.val % 8 = 7) :
    (dats m 0 c).leavesExact 4 t = owns (c : Thread nD τ) (ms0_4 t) fullShare ((outsAt0 m c t.val t.isLt).2.1) := by
  unfold Dat.leavesExact; rw [liveAt0_4 t h7, after0_4]

theorem leaves0_4_idle (c : Dev nD) (t : Fin cfg0.N) (h7 : t.val % 8 ≠ 7) :
    (dats m 0 c).leavesExact 4 t = iprop(∃ d, owns (c : Thread nD τ) (ms0_4 t) fullShare ((dats m 0 c).before 4 t d)) :=
  Dat.leavesExact_idle (dats m 0 c) 4 t (idleAt0_4 t h7) (noFlush0_4 t h7)

set_option maxHeartbeats 4800000 in

/-- The body at point `t` takes the contents named after `t` points to those named after `t + 1`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  by_cases h0 : t.val % 8 = 0
  · rw [leaves0_4_idle m c t (by omega), outsAt0_first m c t h0]
    dsimp only [stepFirst]
    by_cases hz : t.val = 0
    · rw [PhiS_castSucc m c t, PhiS_zero m c _ _ hz, PhiA0_eq]
      iintro ⟨⟨⟨HS0, HS1, HS2, HS3, HS4, HS5⟩, Hg⟩, Ho, ⟨%d0, H0⟩, ⟨%d1, H1⟩, ⟨%d2, H2⟩, ⟨%d3, H3⟩, ⟨%d4, H4⟩⟩
      iapply ((kernelRun_0 c (grid0.coords t) (operandsAt t) (hq_first t h0) (iblk m c 0 t) (iblk m c 1 t) (iblk m c 2 t)).2.2.2 ((dats m 0 c).before 4 t d4) Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, ⟨%e3, H3⟩, H4, HS0, HS1, HS2, HS3, HS4, ⟨%e12, HS5⟩⟩
      isplitl [HS0 HS1 HS2 HS3 HS4 HS5 Hg]
      · isplitr [Hg]
        · isplitl [HS0]; · iexact HS0
          isplitl [HS1]; · iexact HS1
          isplitl [HS2]; · iexact HS2
          isplitl [HS3]; · iexact HS3
          isplitl [HS4]; · iexact HS4
          unfold owns sout12_first; iexists _; isplitr
          swap; · iexact HS5
          ipureintro; exact View.read_writes_of_cover _ _ _ _ _ (scover12_first c _ _ _ _ _ _)
        iexact Hg
      isplitl [Ho]; · iexact Ho
      isplitl [H0]; · iexact H0
      isplitl [H1]; · iexact H1
      isplitl [H2]; · iexact H2
      isplitl [H3]
      · unfold owns out3_first; iexists _; isplitr
        swap; · iexact H3
        ipureintro; exact View.read_writes_of_cover _ _ _ _ _ (cover3_first c _ _ _ _ _ _)
      iexists _; iexact H4
    · rw [PhiS_castSucc m c t, PhiS_pos m c _ _ hz]
      iintro ⟨⟨⟨HS0, HS1, HS2, HS3, HS4, HS5⟩, Hg⟩, Ho, ⟨%d0, H0⟩, ⟨%d1, H1⟩, ⟨%d2, H2⟩, ⟨%d3, H3⟩, ⟨%d4, H4⟩⟩
      iapply ((kernelRun_0 c (grid0.coords t) (operandsAt t) (hq_first t h0) (iblk m c 0 t) (iblk m c 1 t) (iblk m c 2 t)).2.2.2 ((dats m 0 c).before 4 t d4) Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      isplitl [HS2]; · iexact HS2
      isplitl [HS3]; · iexact HS3
      isplitl [HS4]; · iexact HS4
      isplitl [HS5]; · iexists _; iexact HS5
      iintro ⟨H0, H1, H2, ⟨%e3, H3⟩, H4, HS0, HS1, HS2, HS3, HS4, ⟨%e12, HS5⟩⟩
      isplitl [HS0 HS1 HS2 HS3 HS4 HS5 Hg]
      · isplitr [Hg]
        · isplitl [HS0]; · iexact HS0
          isplitl [HS1]; · iexact HS1
          isplitl [HS2]; · iexact HS2
          isplitl [HS3]; · iexact HS3
          isplitl [HS4]; · iexact HS4
          unfold owns sout12_first; iexists _; isplitr
          swap; · iexact HS5
          ipureintro; exact View.read_writes_of_cover _ _ _ _ _ (scover12_first c _ _ _ _ _ _)
        iexact Hg
      isplitl [Ho]; · iexact Ho
      isplitl [H0]; · iexact H0
      isplitl [H1]; · iexact H1
      isplitl [H2]; · iexact H2
      isplitl [H3]
      · unfold owns out3_first; iexists _; isplitr
        swap; · iexact H3
        ipureintro; exact View.read_writes_of_cover _ _ _ _ _ (cover3_first c _ _ _ _ _ _)
      iexists _; iexact H4
  · by_cases h7 : t.val % 8 = 7
    · rw [leaves0_4_last m c t h7, outsAt0_last m c t h7]
      have hz : t.val ≠ 0 := by omega
      rw [PhiS_castSucc m c t, PhiS_pos m c _ _ hz]
      dsimp only [stepLast]
      iintro ⟨⟨⟨HS0, HS1, HS2, HS3, HS4, HS5⟩, Hg⟩, Ho, ⟨%d0, H0⟩, ⟨%d1, H1⟩, ⟨%d2, H2⟩, ⟨%d3, H3⟩, ⟨%d4, H4⟩⟩
      iapply ((kernelRun_7 c (grid0.coords t) (operandsAt t) (hq_last t h7) (iblk m c 0 t) (iblk m c 1 t) (iblk m c 2 t) (prev12 m c t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, ⟨%e3, H3⟩, ⟨%e4, H4⟩, HS0, HS1, HS2, HS3, HS4, HS5⟩
      isplitl [HS0 HS1 HS2 HS3 HS4 HS5 Hg]
      · isplitr [Hg]
        · isplitl [HS0]; · iexact HS0
          isplitl [HS1]; · iexact HS1
          isplitl [HS2]; · iexact HS2
          isplitl [HS3]; · iexact HS3
          isplitl [HS4]; · iexact HS4
          unfold owns sout12_last; iexists _; isplitr
          swap; · iexact HS5
          ipureintro; rfl
        iexact Hg
      isplitl [Ho]; · iexact Ho
      isplitl [H0]; · iexact H0
      isplitl [H1]; · iexact H1
      isplitl [H2]; · iexact H2
      isplitl [H3]
      · unfold owns out3_last; iexists _; isplitr
        swap; · iexact H3
        ipureintro; exact View.read_writes_of_cover _ _ _ _ _ (cover3_last c _ _ _ _ _ _ _)
      unfold owns out4_last; iexists _; isplitr
      swap; · iexact H4
      ipureintro; exact View.read_writes_of_cover _ _ _ _ _ (cover4_last c _ _ _ _ _ _ _)
    · rw [leaves0_4_idle m c t h7, outsAt0_mid m c t h0 h7]
      have hz : t.val ≠ 0 := by omega
      rw [PhiS_castSucc m c t, PhiS_pos m c _ _ hz]
      dsimp only [stepMid]
      iintro ⟨⟨⟨HS0, HS1, HS2, HS3, HS4, HS5⟩, Hg⟩, Ho, ⟨%d0, H0⟩, ⟨%d1, H1⟩, ⟨%d2, H2⟩, ⟨%d3, H3⟩, ⟨%d4, H4⟩⟩
      iapply ((kernelRunMid c (grid0.coords t) (operandsAt t) (iblk m c 0 t) (iblk m c 1 t) (iblk m c 2 t) (hq_mid1 t h0) (hq_mid6 t h7) (prev12 m c t)).2.2.2 ((dats m 0 c).before 4 t d4) Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, ⟨%e3, H3⟩, H4, HS0, HS1, HS2, HS3, HS4, HS5⟩
      isplitl [HS0 HS1 HS2 HS3 HS4 HS5 Hg]
      · isplitr [Hg]
        · isplitl [HS0]; · iexact HS0
          isplitl [HS1]; · iexact HS1
          isplitl [HS2]; · iexact HS2
          isplitl [HS3]; · iexact HS3
          isplitl [HS4]; · iexact HS4
          unfold owns sout12_mid; iexists _; isplitr
          swap; · iexact HS5
          ipureintro; rfl
        iexact Hg
      isplitl [Ho]; · iexact Ho
      isplitl [H0]; · iexact H0
      isplitl [H1]; · iexact H1
      isplitl [H2]; · iexact H2
      isplitl [H3]
      · unfold owns out3_mid; iexists _; isplitr
        swap; · iexact H3
        ipureintro; exact View.read_writes_of_cover _ _ _ _ _ (cover3_mid c _ _ _ _ _ _ _ _)
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitr [Hg]
  · isplitl [HS0]; · iexact HS0
    isplitl [HS1]; · iexact HS1
    isplitl [HS2]; · iexact HS2
    isplitl [HS3]; · iexact HS3
    isplitl [HS4]; · iexact HS4
    iexists _; iexact HS5
  iexact Hg

theorem hout (c : Dev nD) : (dats m 0 c).Φ (Fin.last cfg0.N) ⊢ Pipeline.ΦA spec0 c :=
  Phi_out m c _ (by rw [Fin.val_last]; have : cfg0.N = 128 := N_eq; omega)

set_option backward.isDefEq.respectTransparency.types false in

theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
import Idealize.ShloMosaic.PureOps.Ideal

noncomputable section

namespace Attn

open Idealize.ShloMosaic

abbrev Mat (a b : Nat) := Fin a → Fin b → EReal

def gk (j : Fin 8) (c : Fin 512) : Fin 4096 := ⟨512 * j.val + c.val, by have := j.isLt; have := c.isLt; omega⟩

def tileOf (s : Fin 4096) : Fin 8 := ⟨s.val / 512, by have := s.isLt; omega⟩
def rowOf (s : Fin 4096) : Fin 512 := ⟨s.val % 512, Nat.mod_lt _ (by decide)⟩

theorem gk_tile_row (s : Fin 4096) : gk (tileOf s) (rowOf s) = s := by
  apply Fin.ext; simp only [gk, tileOf, rowOf]; omega
theorem tileOf_gk (j : Fin 8) (c : Fin 512) : tileOf (gk j c) = j := by
  apply Fin.ext; simp only [gk, tileOf]; have := c.isLt; omega
theorem rowOf_gk (j : Fin 8) (c : Fin 512) : rowOf (gk j c) = c := by
  apply Fin.ext; simp only [gk, rowOf]; have := c.isLt; omega

def scoreOf (q : Mat 4096 64) (k : Mat 64 4096) (c : EReal) : Mat 4096 4096 := fun s t => (∑ d, q s d * k d t) * c

def maskAdd (s t : Fin 4096) : EReal := if s.val < t.val then ⊥ else 0
def refScore (S : Mat 4096 4096) : Mat 4096 4096 := fun s t => S s t + maskAdd s t
def refMax (S : Mat 4096 4096) (s : Fin 4096) : EReal := Finset.univ.fold max ⊥ (refScore S s)
def refExp (S : Mat 4096 4096) (s t : Fin 4096) : EReal := Ideal.exp (refScore S s t - refMax S s)
def refDen (S : Mat 4096 4096) (s : Fin 4096) : EReal := ∑ t, refExp S s t
def refP (S : Mat 4096 4096) (s t : Fin 4096) : EReal := Ideal.div (refExp S s t) (refDen S s)

def refOut (S : Mat 4096 4096) (V : Mat 4096 64) (s : Fin 4096) (d : Fin 64) : EReal := ∑ t, refP S s t * V t d

def refRS (S : Mat 4096 4096) (t : Fin 4096) : EReal := ∑ s, refP S s t

structure RowSt where
  m : EReal
  l : EReal
  acc : Fin 64 → EReal

def RowSt.init : RowSt := ⟨⊥, 0, fun _ => 0⟩

def rowStep (σ : Fin 512 → EReal) (vj : Mat 512 64) (st : RowSt) : RowSt :=
  { m := max st.m (Finset.univ.fold max ⊥ σ)
    l := Ideal.exp (st.m - max st.m (Finset.univ.fold max ⊥ σ)) * st.l
          + ∑ c, Ideal.exp (σ c - max st.m (Finset.univ.fold max ⊥ σ))
    acc := fun d => Ideal.exp (st.m - max st.m (Finset.univ.fold max ⊥ σ)) * st.acc d
          + ∑ c, Ideal.exp (σ c - max st.m (Finset.univ.fold max ⊥ σ)) * vj c d }

def chunkScore (S : Mat 4096 4096) (qi : Fin 8) (r : Fin 512) (j : Fin 8) : Fin 512 → EReal :=
  fun c => if j.val < qi.val then S (gk qi r) (gk j c) else (if c.val ≤ r.val then S (gk qi r) (gk j c) else ⊥)

def chunkV (V : Mat 4096 64) (j : Fin 8) : Mat 512 64 := fun c d => V (gk j c) d

def stAfter (S : Mat 4096 4096) (V : Mat 4096 64) (qi : Fin 8) (r : Fin 512) : ℕ → RowSt
  | 0 => RowSt.init
  | n + 1 => if h : n < 8 then rowStep (chunkScore S qi r ⟨n, h⟩) (chunkV V ⟨n, h⟩) (stAfter S V qi r n)
             else stAfter S V qi r n

def stFinal (S : Mat 4096 4096) (V : Mat 4096 64) (qi : Fin 8) (r : Fin 512) : RowSt := stAfter S V qi r (qi.val + 1)

def kerOut (S : Mat 4096 4096) (V : Mat 4096 64) (qi : Fin 8) (r : Fin 512) (d : Fin 64) : EReal :=
  (stFinal S V qi r).acc d * Ideal.div 1 (stFinal S V qi r).l

def pStored (S : Mat 4096 4096) (V : Mat 4096 64) (qi : Fin 8) (r : Fin 512) (j : Fin 8) (c : Fin 512) : EReal :=
  Ideal.exp (chunkScore S qi r j c - (stAfter S V qi r (j.val + 1)).m)

def rescale (S : Mat 4096 4096) (V : Mat 4096 64) (qi : Fin 8) (r : Fin 512) (j : Fin 8) : EReal :=
  Ideal.exp ((stAfter S V qi r (j.val + 1)).m - (stFinal S V qi r).m) * Ideal.div 1 (stFinal S V qi r).l

def tileColSum (S : Mat 4096 4096) (V : Mat 4096 64) (qi j : Fin 8) (c : Fin 512) : EReal :=
  ∑ r : Fin 512, pStored S V qi r j c * rescale S V qi r j

def rsAcc (S : Mat 4096 4096) (V : Mat 4096 64) : ℕ → Fin 4096 → EReal
  | 0, _ => 0
  | n + 1, t => if h : n < 8 then
                  (if (tileOf t).val ≤ n then rsAcc S V n t + tileColSum S V ⟨n, h⟩ (tileOf t) (rowOf t) else rsAcc S V n t)
                else rsAcc S V n t

def kerRS (S : Mat 4096 4096) (V : Mat 4096 64) (t : Fin 4096) : EReal := rsAcc S V 8 t

def kerOutAt (S : Mat 4096 4096) (V : Mat 4096 64) (s : Fin 4096) (d : Fin 64) : EReal := kerOut S V (tileOf s) (rowOf s) d

end Attn

end
-- ==== Proof.MathCore.lean ====
import proofs.«407351_j22883585753581_3_alg».proof.Proof.Spec

noncomputable section

namespace Attn

open Idealize.ShloMosaic

theorem coe_max_real (a b : ℝ) : ((max a b : ℝ) : EReal) = max (a : EReal) (b : EReal) :=
  EReal.coe_strictMono.monotone.map_max

theorem coe_sum_real {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

section OneChunk

variable (valid : Fin 512 → Prop) [DecidablePred valid] (x : Fin 512 → ℝ)

theorem fold_max_masked (hC : (Finset.univ.filter valid).Nonempty) :
    Finset.univ.fold max ⊥ (fun c => if valid c then ((x c : ℝ) : EReal) else ⊥)
      = (((Finset.univ.filter valid).sup' hC x : ℝ) : EReal) := by
  apply le_antisymm
  · rw [Finset.fold_max_le]
    refine ⟨bot_le, fun c _ => ?_⟩
    by_cases hc : valid c
    · rw [if_pos hc, EReal.coe_le_coe_iff]
      exact Finset.le_sup' x (Finset.mem_filter.mpr ⟨Finset.mem_univ c, hc⟩)
    · rw [if_neg hc]; exact bot_le
  · rw [Finset.le_fold_max]
    right
    obtain ⟨c, hc, hEq⟩ := Finset.exists_mem_eq_sup' hC x
    refine ⟨c, Finset.mem_univ c, ?_⟩
    rw [if_pos (Finset.mem_filter.mp hc).2, hEq]

theorem exp_masked (M : ℝ) (c : Fin 512) :
    Ideal.exp ((if valid c then ((x c : ℝ) : EReal) else ⊥) - (M : EReal))
      = if valid c then ((Real.exp (x c - M) : ℝ) : EReal) else 0 := by
  by_cases hc : valid c
  · rw [if_pos hc, if_pos hc, ← EReal.coe_sub, Ideal.exp_coe]
  · rw [if_neg hc, if_neg hc, EReal.bot_sub, Ideal.exp_bot]

theorem sum_exp_masked (M : ℝ) :
    ∑ c, Ideal.exp ((if valid c then ((x c : ℝ) : EReal) else ⊥) - (M : EReal))
      = ((∑ c ∈ Finset.univ.filter valid, Real.exp (x c - M) : ℝ) : EReal) := by
  rw [coe_sum_real, Finset.sum_filter]
  refine Finset.sum_congr rfl fun c _ => ?_
  rw [exp_masked]

theorem sum_exp_masked_mul (w : Fin 512 → ℝ) (M : ℝ) :
    ∑ c, Ideal.exp ((if valid c then ((x c : ℝ) : EReal) else ⊥) - (M : EReal)) * ((w c : ℝ) : EReal)
      = ((∑ c ∈ Finset.univ.filter valid, Real.exp (x c - M) * w c : ℝ) : EReal) := by
  rw [coe_sum_real, Finset.sum_filter]
  refine Finset.sum_congr rfl fun c _ => ?_
  rw [exp_masked]
  by_cases hc : valid c
  · rw [if_pos hc, if_pos hc, EReal.coe_mul]
  · rw [if_neg hc, if_neg hc, zero_mul]

theorem rowStep_real (v : Fin 512 → Fin 64 → ℝ) (hC : (Finset.univ.filter valid).Nonempty) (M L : ℝ) (A : Fin 64 → ℝ) :
    rowStep (fun c => if valid c then ((x c : ℝ) : EReal) else ⊥) (fun c d => ((v c d : ℝ) : EReal))
        ⟨(M : EReal), (L : EReal), fun d => ((A d : ℝ) : EReal)⟩
      = ⟨((max M ((Finset.univ.filter valid).sup' hC x) : ℝ) : EReal),
         ((Real.exp (M - max M ((Finset.univ.filter valid).sup' hC x)) * L
            + ∑ c ∈ Finset.univ.filter valid, Real.exp (x c - max M ((Finset.univ.filter valid).sup' hC x)) : ℝ) : EReal),
         fun d => ((Real.exp (M - max M ((Finset.univ.filter valid).sup' hC x)) * A d
            + ∑ c ∈ Finset.univ.filter valid, Real.exp (x c - max M ((Finset.univ.filter valid).sup' hC x)) * v c d : ℝ) : EReal)⟩ := by
  simp only [rowStep, fold_max_masked valid x hC, ← coe_max_real, sum_exp_masked, sum_exp_masked_mul,
    ← EReal.coe_sub, Ideal.exp_coe, ← EReal.coe_mul, ← EReal.coe_add]

theorem rowStep_init (v : Fin 512 → Fin 64 → ℝ) (hC : (Finset.univ.filter valid).Nonempty) :
    rowStep (fun c => if valid c then ((x c : ℝ) : EReal) else ⊥) (fun c d => ((v c d : ℝ) : EReal)) RowSt.init
      = ⟨(((Finset.univ.filter valid).sup' hC x : ℝ) : EReal),
         ((∑ c ∈ Finset.univ.filter valid, Real.exp (x c - (Finset.univ.filter valid).sup' hC x) : ℝ) : EReal),
         fun d => ((∑ c ∈ Finset.univ.filter valid, Real.exp (x c - (Finset.univ.filter valid).sup' hC x) * v c d : ℝ) : EReal)⟩ := by
  simp only [rowStep, RowSt.init, fold_max_masked valid x hC, max_bot_left, EReal.bot_sub, Ideal.exp_bot, zero_mul,
    mul_zero, zero_add, sum_exp_masked, sum_exp_masked_mul]

end OneChunk

theorem exp_rescale_sum {ι : Type} (K : Finset ι) (f g : ι → ℝ) (M M' : ℝ) :
    Real.exp (M - M') * ∑ t ∈ K, Real.exp (f t - M) * g t = ∑ t ∈ K, Real.exp (f t - M') * g t := by
  rw [Finset.mul_sum]
  refine Finset.sum_congr rfl fun t _ => ?_
  rw [← mul_assoc, ← Real.exp_add]
  congr 2; ring

theorem exp_rescale_sum_one {ι : Type} (K : Finset ι) (f : ι → ℝ) (M M' : ℝ) :
    Real.exp (M - M') * ∑ t ∈ K, Real.exp (f t - M) = ∑ t ∈ K, Real.exp (f t - M') := by
  have := exp_rescale_sum K f (fun _ => 1) M M'
  simpa only [mul_one] using this

variable (Sr : Fin 4096 → Fin 4096 → ℝ) (Vr : Fin 4096 → Fin 64 → ℝ)

def keys (s : Fin 4096) (n : ℕ) : Finset (Fin 4096) := Finset.univ.filter fun t => t.val < 512 * n ∧ t.val ≤ s.val

theorem keys_nonempty (s : Fin 4096) (n : ℕ) (hn : 1 ≤ n) : (keys s n).Nonempty := by
  refine ⟨⟨0, by decide⟩, ?_⟩
  simp only [keys, Finset.mem_filter, Finset.mem_univ, true_and]
  constructor <;> omega

def rMax (s : Fin 4096) (n : ℕ) (hn : 1 ≤ n) : ℝ := (keys s n).sup' (keys_nonempty s n hn) (Sr s)

def rDen (s : Fin 4096) (n : ℕ) (hn : 1 ≤ n) : ℝ := ∑ t ∈ keys s n, Real.exp (Sr s t - rMax Sr s n hn)

def rNum (s : Fin 4096) (n : ℕ) (hn : 1 ≤ n) (d : Fin 64) : ℝ := ∑ t ∈ keys s n, Real.exp (Sr s t - rMax Sr s n hn) * Vr t d

theorem rDen_pos (s : Fin 4096) (n : ℕ) (hn : 1 ≤ n) : 0 < rDen Sr s n hn :=
  Finset.sum_pos (fun _ _ => Real.exp_pos _) (keys_nonempty s n hn)

theorem keys_final (qi : Fin 8) (r : Fin 512) : keys (gk qi r) (qi.val + 1) = Finset.univ.filter fun t => t.val ≤ (gk qi r).val := by
  ext t
  simp only [keys, Finset.mem_filter, Finset.mem_univ, true_and]
  have := r.isLt
  constructor
  · rintro ⟨_, h⟩; exact h
  · intro h; refine ⟨?_, h⟩
    simp only [gk] at h; omega

theorem keys_zero (s : Fin 4096) : keys s 0 = ∅ := by
  ext t
  simp only [keys, Finset.mem_filter, Finset.mem_univ, true_and, Finset.notMem_empty, iff_false]
  omega

theorem gk_injective (j : Fin 8) : Function.Injective (gk j) := by
  intro a b h
  have := congrArg rowOf h
  rwa [rowOf_gk, rowOf_gk] at this

abbrev newKeys (s : Fin 4096) (j : Fin 8) : Finset (Fin 512) := Finset.univ.filter fun c => (gk j c).val ≤ s.val

theorem newKeys_nonempty (qi : Fin 8) (r : Fin 512) (j : Fin 8) (hj : j.val ≤ qi.val) : (newKeys (gk qi r) j).Nonempty := by
  refine ⟨⟨0, by decide⟩, ?_⟩
  simp only [newKeys, Finset.mem_filter, Finset.mem_univ, true_and]
  simp only [gk]; omega

theorem keys_succ (s : Fin 4096) (n : ℕ) (h : n < 8) :
    keys s (n + 1) = keys s n ∪ (newKeys s ⟨n, h⟩).image (gk ⟨n, h⟩) := by
  ext t
  simp only [keys, newKeys, Finset.mem_union, Finset.mem_image, Finset.mem_filter, Finset.mem_univ, true_and]
  constructor
  · rintro ⟨h1, h2⟩
    by_cases h3 : t.val < 512 * n
    · exact Or.inl ⟨h3, h2⟩
    · right
      refine ⟨⟨t.val - 512 * n, by omega⟩, ?_, ?_⟩
      · simp only [gk]; omega
      · apply Fin.ext; simp only [gk]; omega
  · rintro (⟨h1, h2⟩ | ⟨c, hc, rfl⟩)
    · exact ⟨by omega, h2⟩
    · refine ⟨?_, hc⟩
      simp only [gk]; have := c.isLt; omega

theorem keys_disjoint (s : Fin 4096) (n : ℕ) (h : n < 8) :
    Disjoint (keys s n) ((newKeys s ⟨n, h⟩).image (gk ⟨n, h⟩)) := by
  rw [Finset.disjoint_left]
  intro t ht ht'
  simp only [keys, Finset.mem_filter, Finset.mem_univ, true_and] at ht
  obtain ⟨c, _, rfl⟩ := Finset.mem_image.mp ht'
  simp only [gk] at ht; omega

theorem sum_keys_succ (s : Fin 4096) (n : ℕ) (h : n < 8) (F : Fin 4096 → ℝ) :
    ∑ t ∈ keys s (n + 1), F t = ∑ t ∈ keys s n, F t + ∑ c ∈ newKeys s ⟨n, h⟩, F (gk ⟨n, h⟩ c) := by
  rw [keys_succ s n h, Finset.sum_union (keys_disjoint s n h),
    Finset.sum_image (fun a _ b _ hab => gk_injective ⟨n, h⟩ hab)]

theorem sum_keys_one (s : Fin 4096) (h : 0 < 8) (F : Fin 4096 → ℝ) :
    ∑ t ∈ keys s 1, F t = ∑ c ∈ newKeys s ⟨0, h⟩, F (gk ⟨0, h⟩ c) := by
  have := sum_keys_succ s 0 h F
  rw [keys_zero, Finset.sum_empty, zero_add, zero_add] at this
  exact this

theorem rMax_succ (s : Fin 4096) (n : ℕ) (hn : 1 ≤ n) (h : n < 8) (hC : (newKeys s ⟨n, h⟩).Nonempty) :
    rMax Sr s (n + 1) (Nat.le_succ_of_le hn)
      = max (rMax Sr s n hn) ((newKeys s ⟨n, h⟩).sup' hC fun c => Sr s (gk ⟨n, h⟩ c)) := by
  apply eq_of_forall_ge_iff
  intro b
  simp only [rMax, Finset.sup'_le_iff, max_le_iff, keys_succ s n h, Finset.mem_union, Finset.mem_image]
  constructor
  · intro H
    exact ⟨fun t ht => H t (Or.inl ht), fun c hc => H _ (Or.inr ⟨c, hc, rfl⟩)⟩
  · rintro ⟨H1, H2⟩ t (ht | ⟨c, hc, rfl⟩)
    · exact H1 t ht
    · exact H2 c hc

theorem rMax_one (s : Fin 4096) (h : 0 < 8) (hC : (newKeys s ⟨0, h⟩).Nonempty) :
    rMax Sr s 1 le_rfl = (newKeys s ⟨0, h⟩).sup' hC fun c => Sr s (gk ⟨0, h⟩ c) := by
  apply eq_of_forall_ge_iff
  intro b
  simp only [rMax, Finset.sup'_le_iff, keys_succ s 0 h, keys_zero, Finset.empty_union, Finset.mem_image]
  constructor
  · intro H c hc; exact H _ ⟨c, hc, rfl⟩
  · rintro H t ⟨c, hc, rfl⟩; exact H c hc

theorem chunkScore_real (qi : Fin 8) (r : Fin 512) (n : ℕ) (h : n < 8) (hq : n ≤ qi.val) :
    chunkScore (fun s t => ((Sr s t : ℝ) : EReal)) qi r ⟨n, h⟩
      = fun c => if (gk ⟨n, h⟩ c).val ≤ (gk qi r).val then ((Sr (gk qi r) (gk ⟨n, h⟩ c) : ℝ) : EReal) else ⊥ := by
  funext c
  have hc := c.isLt
  have hr := r.isLt
  simp only [chunkScore]
  by_cases h1 : n < qi.val
  · rw [if_pos h1, if_pos]; simp only [gk]; omega
  · rw [if_neg h1]
    have h3 : qi.val = n := by omega
    by_cases h2 : c.val ≤ r.val
    · rw [if_pos h2, if_pos]; simp only [gk]; omega
    · rw [if_neg h2, if_neg]; simp only [gk]; omega

theorem stAfter_real (qi : Fin 8) (r : Fin 512) (n : ℕ) (hn : 1 ≤ n) (hn' : n ≤ qi.val + 1) :
    stAfter (fun s t => ((Sr s t : ℝ) : EReal)) (fun t d => ((Vr t d : ℝ) : EReal)) qi r n
      = ⟨((rMax Sr (gk qi r) n hn : ℝ) : EReal), ((rDen Sr (gk qi r) n hn : ℝ) : EReal), fun d => ((rNum Sr Vr (gk qi r) n hn d : ℝ) : EReal)⟩ := by
  induction n, hn using Nat.le_induction with
  | base =>
    have h0 : (0 : ℕ) < 8 := by decide
    have hC := newKeys_nonempty qi r ⟨0, h0⟩ (Nat.zero_le _)
    rw [stAfter, dif_pos h0, stAfter, chunkScore_real Sr qi r 0 h0 (Nat.zero_le _)]
    refine (rowStep_init _ _ (fun c d => Vr (gk ⟨0, h0⟩ c) d) hC).trans ?_
    have hM := rMax_one Sr (gk qi r) h0 hC
    rw [RowSt.mk.injEq]
    refine ⟨?_, ?_, ?_⟩
    · rw [hM]
    · rw [← hM, rDen, sum_keys_one _ h0]
    · funext d
      rw [← hM, rNum, sum_keys_one _ h0]
  | succ n hn ih =>
    have hq : n ≤ qi.val := by omega
    have h8 : n < 8 := by have := qi.isLt; omega
    have hC := newKeys_nonempty qi r ⟨n, h8⟩ hq
    rw [stAfter, dif_pos h8, ih (by omega), chunkScore_real Sr qi r n h8 hq]
    refine (rowStep_real _ _ (fun c d => Vr (gk ⟨n, h8⟩ c) d) hC _ _ _).trans ?_
    have hM := rMax_succ Sr (gk qi r) n hn h8 hC
    rw [RowSt.mk.injEq]
    refine ⟨?_, ?_, ?_⟩
    · rw [hM]
    · rw [← hM, rDen, rDen, exp_rescale_sum_one, sum_keys_succ _ n h8]
    · funext d
      rw [← hM, rNum, rNum, exp_rescale_sum, sum_keys_succ _ n h8]

end Attn

end
-- ==== Proof.MathOut.lean ====
import proofs.«407351_j22883585753581_3_alg».proof.Proof.MathCore

noncomputable section

namespace Attn

open Idealize.ShloMosaic

theorem coe_finsum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem sum_ite_coe {ι : Type*} [Fintype ι] (p : ι → Prop) [DecidablePred p] (f : ι → ℝ) :
    (∑ i, if p i then ((f i : ℝ) : EReal) else 0) = ((∑ i ∈ Finset.univ.filter p, f i : ℝ) : EReal) := by
  rw [coe_finsum, Finset.sum_filter]

theorem fold_max_ite {ι : Type*} [Fintype ι] (p : ι → Prop) [DecidablePred p] (x : ι → ℝ)
    (h : (Finset.univ.filter p).Nonempty) :
    Finset.univ.fold max ⊥ (fun t => if p t then ((x t : ℝ) : EReal) else ⊥)
      = (((Finset.univ.filter p).sup' h x : ℝ) : EReal) := by
  apply le_antisymm
  · rw [Finset.fold_max_le]
    refine ⟨bot_le, fun t _ => ?_⟩
    by_cases hp : p t
    · rw [if_pos hp, EReal.coe_le_coe_iff]
      exact Finset.le_sup' x (Finset.mem_filter.2 ⟨Finset.mem_univ t, hp⟩)
    · rw [if_neg hp]; exact bot_le
  · obtain ⟨t, ht, heq⟩ := Finset.exists_mem_eq_sup' h x
    rw [Finset.le_fold_max]
    refine Or.inr ⟨t, Finset.mem_univ t, ?_⟩
    rw [if_pos (Finset.mem_filter.1 ht).2, heq]

theorem scoreOf_real (q : Mat 4096 64) (k : Mat 64 4096) (c : EReal)
    (hq : ∀ s d, ∃ x : ℝ, q s d = (x : EReal)) (hk : ∀ d t, ∃ x : ℝ, k d t = (x : EReal)) (hc : ∃ x : ℝ, c = (x : EReal)) :
    ∀ s t, ∃ x : ℝ, scoreOf q k c s t = (x : EReal) := by
  intro s t
  choose qr hqr using hq
  choose kr hkr using hk
  obtain ⟨cr, hcr⟩ := hc
  refine ⟨(∑ d, qr s d * kr d t) * cr, ?_⟩
  simp only [scoreOf, hqr, hkr, hcr]
  rw [EReal.coe_mul, coe_finsum]
  simp only [EReal.coe_mul]

theorem refScore_coe (Sr : Fin 4096 → Fin 4096 → ℝ) (s t : Fin 4096) :
    refScore (fun s t => ((Sr s t : ℝ) : EReal)) s t = if t.val ≤ s.val then ((Sr s t : ℝ) : EReal) else ⊥ := by
  unfold refScore maskAdd
  by_cases h : t.val ≤ s.val
  · rw [if_pos h, if_neg (by omega), add_zero]
  · rw [if_neg h, if_pos (by omega), EReal.add_bot]

theorem diag_nonempty (s : Fin 4096) : (Finset.univ.filter fun t : Fin 4096 => t.val ≤ s.val).Nonempty :=
  ⟨s, Finset.mem_filter.2 ⟨Finset.mem_univ s, le_rfl⟩⟩

theorem sup'_of_eq {β : Type*} {s t : Finset β} (h : s = t) (Hs : s.Nonempty) (Ht : t.Nonempty) (f : β → ℝ) :
    s.sup' Hs f = t.sup' Ht f := by
  subst h; rfl

theorem rMax_final (Sr : Fin 4096 → Fin 4096 → ℝ) (qi : Fin 8) (r : Fin 512) :
    rMax Sr (gk qi r) (qi.val + 1) (Nat.succ_le_succ (Nat.zero_le _))
      = (Finset.univ.filter fun t : Fin 4096 => t.val ≤ (gk qi r).val).sup' (diag_nonempty (gk qi r)) (Sr (gk qi r)) := by
  unfold rMax
  exact sup'_of_eq (keys_final qi r) (keys_nonempty _ _ (Nat.succ_le_succ (Nat.zero_le _))) (diag_nonempty _) (Sr (gk qi r))

theorem refMax_real (Sr : Fin 4096 → Fin 4096 → ℝ) (qi : Fin 8) (r : Fin 512) :
    refMax (fun s t => ((Sr s t : ℝ) : EReal)) (gk qi r) = ((rMax Sr (gk qi r) (qi.val + 1) (Nat.succ_le_succ (Nat.zero_le _)) : ℝ) : EReal) := by
  rw [rMax_final, ← fold_max_ite]
  unfold refMax
  congr 1
  funext t
  exact refScore_coe Sr (gk qi r) t

theorem refExp_real (Sr : Fin 4096 → Fin 4096 → ℝ) (qi : Fin 8) (r : Fin 512) (t : Fin 4096) :
    refExp (fun s t => ((Sr s t : ℝ) : EReal)) (gk qi r) t
      = if t.val ≤ (gk qi r).val then
          ((Real.exp (Sr (gk qi r) t - rMax Sr (gk qi r) (qi.val + 1) (Nat.succ_le_succ (Nat.zero_le _))) : ℝ) : EReal)
        else 0 := by
  unfold refExp
  rw [refMax_real, refScore_coe]
  by_cases h : t.val ≤ (gk qi r).val
  · rw [if_pos h, if_pos h, ← EReal.coe_sub, Ideal.exp_coe]
  · rw [if_neg h, if_neg h, EReal.bot_sub, Ideal.exp_bot]

theorem refDen_real (Sr : Fin 4096 → Fin 4096 → ℝ) (qi : Fin 8) (r : Fin 512) :
    refDen (fun s t => ((Sr s t : ℝ) : EReal)) (gk qi r)
      = ((rDen Sr (gk qi r) (qi.val + 1) (Nat.succ_le_succ (Nat.zero_le _)) : ℝ) : EReal) := by
  unfold refDen
  simp only [refExp_real]
  rw [sum_ite_coe]
  unfold rDen
  rw [keys_final]

theorem refP_real (Sr : Fin 4096 → Fin 4096 → ℝ) (qi : Fin 8) (r : Fin 512) (t : Fin 4096) :
    refP (fun s t => ((Sr s t : ℝ) : EReal)) (gk qi r) t
      = if t.val ≤ (gk qi r).val then
          ((Real.exp (Sr (gk qi r) t - rMax Sr (gk qi r) (qi.val + 1) (Nat.succ_le_succ (Nat.zero_le _)))
              / rDen Sr (gk qi r) (qi.val + 1) (Nat.succ_le_succ (Nat.zero_le _)) : ℝ) : EReal)
        else 0 := by
  unfold refP
  rw [refDen_real, refExp_real, Ideal.div_coe (rDen_pos Sr (gk qi r) (qi.val + 1) _).ne']
  by_cases h : t.val ≤ (gk qi r).val
  · rw [if_pos h, if_pos h, ← EReal.coe_mul, mul_one_div]
  · rw [if_neg h, if_neg h, zero_mul]

theorem kerOutAt_eq_refOut (S : Mat 4096 4096) (V : Mat 4096 64)
    (hS : ∀ s t, ∃ x : ℝ, S s t = (x : EReal)) (hV : ∀ t d, ∃ x : ℝ, V t d = (x : EReal)) (s : Fin 4096) (d : Fin 64) :
    kerOutAt S V s d = refOut S V s d := by
  choose Sr hSr using hS
  choose Vr hVr using hV
  obtain rfl : S = fun s t => ((Sr s t : ℝ) : EReal) := funext fun s => funext fun t => hSr s t
  obtain rfl : V = fun t d => ((Vr t d : ℝ) : EReal) := funext fun t => funext fun d => hVr t d
  obtain ⟨qi, r, rfl⟩ : ∃ qi r, s = gk qi r := ⟨tileOf s, rowOf s, (gk_tile_row s).symm⟩
  have hn : 1 ≤ qi.val + 1 := Nat.succ_le_succ (Nat.zero_le _)
  unfold kerOutAt kerOut stFinal refOut
  rw [tileOf_gk, rowOf_gk, stAfter_real Sr Vr qi r (qi.val + 1) hn le_rfl]
  simp only [refP_real]
  rw [Ideal.div_coe (rDen_pos Sr (gk qi r) (qi.val + 1) hn).ne', one_mul, ← EReal.coe_mul]
  have hterm : ∀ t : Fin 4096,
      (if t.val ≤ (gk qi r).val then
          ((Real.exp (Sr (gk qi r) t - rMax Sr (gk qi r) (qi.val + 1) hn) / rDen Sr (gk qi r) (qi.val + 1) hn : ℝ) : EReal)
        else 0) * ((Vr t d : ℝ) : EReal)
      = if t.val ≤ (gk qi r).val then
          ((Real.exp (Sr (gk qi r) t - rMax Sr (gk qi r) (qi.val + 1) hn) * Vr t d * (1 / rDen Sr (gk qi r) (qi.val + 1) hn) : ℝ) : EReal)
        else 0 := by
    intro t
    by_cases h : t.val ≤ (gk qi r).val
    · rw [if_pos h, if_pos h, ← EReal.coe_mul]; congr 1; ring
    · rw [if_neg h, if_neg h, zero_mul]
  simp only [hterm]
  rw [sum_ite_coe]
  congr 1
  unfold rNum
  rw [keys_final, Finset.sum_mul]

end Attn

end
-- ==== Proof.MathRS.lean ====
import proofs.«407351_j22883585753581_3_alg».proof.Proof.MathOut

noncomputable section

namespace Attn

open Idealize.ShloMosaic

theorem exists_real_mat {a b : ℕ} (M : Mat a b) (h : ∀ s t, ∃ x : ℝ, M s t = (x : EReal)) :
    ∃ Mr : Fin a → Fin b → ℝ, M = fun s t => ((Mr s t : ℝ) : EReal) := by
  choose f hf using h
  exact ⟨f, by funext s t; exact hf s t⟩

theorem gk_le_iff (qi j : Fin 8) (r c : Fin 512) (hj : j.val ≤ qi.val) :
    (gk j c).val ≤ (gk qi r).val ↔ (j.val < qi.val ∨ c.val ≤ r.val) := by
  have := r.isLt; have := c.isLt
  simp only [gk]; omega

theorem term_eq_refP (Sr : Fin 4096 → Fin 4096 → ℝ) (Vr : Fin 4096 → Fin 64 → ℝ) (qi : Fin 8) (r : Fin 512) (j : Fin 8) (hj : j.val ≤ qi.val) (c : Fin 512) :
    pStored (fun s t => ((Sr s t : ℝ) : EReal)) (fun t d => ((Vr t d : ℝ) : EReal)) qi r j c
        * rescale (fun s t => ((Sr s t : ℝ) : EReal)) (fun t d => ((Vr t d : ℝ) : EReal)) qi r j
      = refP (fun s t => ((Sr s t : ℝ) : EReal)) (gk qi r) (gk j c) := by
  have hj1 : 1 ≤ j.val + 1 := Nat.succ_le_succ (Nat.zero_le _)
  have hq1 : 1 ≤ qi.val + 1 := Nat.succ_le_succ (Nat.zero_le _)
  have hlpos := rDen_pos Sr (gk qi r) (qi.val + 1) hq1
  rw [pStored, rescale, stFinal, stAfter_real Sr Vr qi r (j.val + 1) hj1 (Nat.succ_le_succ hj),
    stAfter_real Sr Vr qi r (qi.val + 1) hq1 le_rfl, refP_real, Ideal.div_coe (ne_of_gt hlpos)]
  simp only [chunkScore]
  by_cases hle : (gk j c).val ≤ (gk qi r).val
  · rw [if_pos hle]
    have hsc : (if j.val < qi.val then ((Sr (gk qi r) (gk j c) : ℝ) : EReal)
        else (if c.val ≤ r.val then ((Sr (gk qi r) (gk j c) : ℝ) : EReal) else ⊥)) = ((Sr (gk qi r) (gk j c) : ℝ) : EReal) := by
      rcases (gk_le_iff qi j r c hj).1 hle with h | h
      · rw [if_pos h]
      · by_cases h' : j.val < qi.val
        · rw [if_pos h']
        · rw [if_neg h', if_pos h]
    rw [hsc, ← EReal.coe_sub, ← EReal.coe_sub, Ideal.exp_coe, Ideal.exp_coe, one_mul, ← EReal.coe_mul, ← EReal.coe_mul,
      ← mul_assoc, ← Real.exp_add, sub_add_sub_cancel, mul_one_div]
  · rw [if_neg hle]
    have hnot := (not_congr (gk_le_iff qi j r c hj)).1 hle
    rw [if_neg (fun h => hnot (Or.inl h)), if_neg (fun h => hnot (Or.inr h)), sub_eq_add_neg, EReal.bot_add, Ideal.exp_bot, zero_mul]

theorem refP_above (S : Mat 4096 4096) (hS : ∀ s t, ∃ x : ℝ, S s t = (x : EReal)) (s t : Fin 4096) (h : s.val < t.val) : refP S s t = 0 := by
  obtain ⟨Sr, rfl⟩ := exists_real_mat S hS
  have hs := gk_tile_row s
  rw [← hs, refP_real, if_neg]
  rw [hs]; omega

theorem sum_rows_succ (f : Fin 4096 → EReal) (n : ℕ) (h : n < 8) :
    ∑ s ∈ Finset.univ.filter (fun s : Fin 4096 => s.val < 512 * (n + 1)), f s
      = ∑ s ∈ Finset.univ.filter (fun s : Fin 4096 => s.val < 512 * n), f s + ∑ r : Fin 512, f (gk ⟨n, h⟩ r) := by
  have hinj : Function.Injective (gk ⟨n, h⟩) := by
    intro a b hab
    have := congrArg rowOf hab
    rwa [rowOf_gk, rowOf_gk] at this
  have hset : Finset.univ.filter (fun s : Fin 4096 => s.val < 512 * (n + 1))
      = Finset.univ.filter (fun s : Fin 4096 => s.val < 512 * n) ∪ Finset.univ.image (gk ⟨n, h⟩) := by
    ext s
    simp only [Finset.mem_filter, Finset.mem_univ, true_and, Finset.mem_union, Finset.mem_image]
    constructor
    · intro hs
      by_cases hlt : s.val < 512 * n
      · exact Or.inl hlt
      · refine Or.inr ⟨⟨s.val - 512 * n, by omega⟩, ?_⟩
        apply Fin.ext; simp only [gk]; omega
    · rintro (hlt | ⟨r, rfl⟩)
      · omega
      · have := r.isLt; simp only [gk]; omega
  have hdisj : Disjoint (Finset.univ.filter (fun s : Fin 4096 => s.val < 512 * n)) (Finset.univ.image (gk ⟨n, h⟩)) := by
    rw [Finset.disjoint_left]
    intro s hs hs'
    simp only [Finset.mem_filter, Finset.mem_univ, true_and] at hs
    simp only [Finset.mem_image, Finset.mem_univ, true_and] at hs'
    obtain ⟨r, rfl⟩ := hs'
    simp only [gk] at hs; omega
  rw [hset, Finset.sum_union hdisj, Finset.sum_image (fun a _ b _ hab => hinj hab)]

theorem rsAcc_real (Sr : Fin 4096 → Fin 4096 → ℝ) (Vr : Fin 4096 → Fin 64 → ℝ) (t : Fin 4096) (n : ℕ) (hn : n ≤ 8) :
    rsAcc (fun s t => ((Sr s t : ℝ) : EReal)) (fun t d => ((Vr t d : ℝ) : EReal)) n t
      = ∑ s ∈ Finset.univ.filter (fun s : Fin 4096 => s.val < 512 * n), refP (fun s t => ((Sr s t : ℝ) : EReal)) s t := by
  induction n with
  | zero =>
    rw [rsAcc, Finset.filter_false_of_mem (fun s _ => by omega), Finset.sum_empty]
  | succ n ih =>
    have h : n < 8 := hn
    rw [rsAcc, dif_pos h, sum_rows_succ _ n h, ih (Nat.le_of_lt h)]
    by_cases hle : (tileOf t).val ≤ n
    · rw [if_pos hle, tileColSum]
      congr 1
      refine Finset.sum_congr rfl fun r _ => ?_
      rw [term_eq_refP Sr Vr ⟨n, h⟩ r (tileOf t) hle (rowOf t), gk_tile_row]
    · have hz : ∑ r : Fin 512, refP (fun s t => ((Sr s t : ℝ) : EReal)) (gk ⟨n, h⟩ r) t = 0 := by
        refine Finset.sum_eq_zero fun r _ => ?_
        refine refP_above _ (fun s t => ⟨Sr s t, rfl⟩) _ _ ?_
        have := r.isLt
        simp only [tileOf] at hle
        simp only [gk]; omega
      rw [if_neg hle, hz, add_zero]

theorem kerRS_eq_refRS (S : Mat 4096 4096) (V : Mat 4096 64)
    (hS : ∀ s t, ∃ x : ℝ, S s t = (x : EReal)) (hV : ∀ t d, ∃ x : ℝ, V t d = (x : EReal)) (t : Fin 4096) :
    kerRS S V t = refRS S t := by
  obtain ⟨Sr, rfl⟩ := exists_real_mat S hS
  obtain ⟨Vr, rfl⟩ := exists_real_mat V hV
  rw [kerRS, refRS, rsAcc_real Sr Vr t 8 le_rfl, Finset.filter_true_of_mem (fun s _ => s.isLt)]

end Attn

end
-- ==== Proof.Heads.lean ====
import proofs.«407351_j22883585753581_3_alg».proof.Proof.MathRS
import Idealize.ShloMosaic.Lib.ValueIdx

noncomputable section

namespace Attn

open Idealize.ShloMosaic Idealize.ShloMosaic.ValueIdx

abbrev SQ : Shape := ⟨4, ![1, 16, 4096, 64]⟩
abbrev SK : Shape := ⟨4, ![1, 16, 64, 4096]⟩
abbrev SR : Shape := ⟨3, ![1, 16, 4096]⟩

def c8 : EReal := Ideal.ofBits .f32 0x3E000000#32

theorem c8_real : ∃ x : ℝ, c8 = (x : EReal) :=
  ⟨(1 : ℝ) / 8, by simp [c8, Ideal.ofBits, Ideal.ieee, -EReal.coe_mul]; norm_num⟩

def headQ (a : SQ.Idx → EReal) (h : Fin 16) : Mat 4096 64 := fun s d => a (ix4 (0 : Fin 1) h s d)
def headK (a : SK.Idx → EReal) (h : Fin 16) : Mat 64 4096 := fun d t => a (ix4 (0 : Fin 1) h d t)

def headS (a0 : SQ.Idx → EReal) (a1 : SK.Idx → EReal) (h : Fin 16) : Mat 4096 4096 := scoreOf (headQ a0 h) (headK a1 h) c8

def outArr (a0 : SQ.Idx → EReal) (a1 : SK.Idx → EReal) (a2 : SQ.Idx → EReal) : SQ.Idx → EReal :=
  fun i => refOut (headS a0 a1 (i 1)) (headQ a2 (i 1)) (i 2) (i 3)
def rsArr (a0 : SQ.Idx → EReal) (a1 : SK.Idx → EReal) : SR.Idx → EReal :=
  fun i => refRS (headS a0 a1 (i 1)) (i 2)

def kOutArr (a0 : SQ.Idx → EReal) (a1 : SK.Idx → EReal) (a2 : SQ.Idx → EReal) : SQ.Idx → EReal :=
  fun i => kerOutAt (headS a0 a1 (i 1)) (headQ a2 (i 1)) (i 2) (i 3)
def kRsArr (a0 : SQ.Idx → EReal) (a1 : SK.Idx → EReal) (a2 : SQ.Idx → EReal) : SR.Idx → EReal :=
  fun i => kerRS (headS a0 a1 (i 1)) (headQ a2 (i 1)) (i 2)

theorem kOutArr_eq (a0 : SQ.Idx → EReal) (a1 : SK.Idx → EReal) (a2 : SQ.Idx → EReal)
    (h0 : ∀ i, ∃ x : ℝ, a0 i = (x : EReal)) (h1 : ∀ i, ∃ x : ℝ, a1 i = (x : EReal)) (h2 : ∀ i, ∃ x : ℝ, a2 i = (x : EReal)) :
    kOutArr a0 a1 a2 = outArr a0 a1 a2 := by
  funext i
  exact kerOutAt_eq_refOut _ _ (scoreOf_real _ _ _ (fun s d => h0 _) (fun d t => h1 _) c8_real) (fun t d => h2 _) _ _

theorem kRsArr_eq (a0 : SQ.Idx → EReal) (a1 : SK.Idx → EReal) (a2 : SQ.Idx → EReal)
    (h0 : ∀ i, ∃ x : ℝ, a0 i = (x : EReal)) (h1 : ∀ i, ∃ x : ℝ, a1 i = (x : EReal)) (h2 : ∀ i, ∃ x : ℝ, a2 i = (x : EReal)) :
    kRsArr a0 a1 a2 = rsArr a0 a1 := by
  funext i
  exact kerRS_eq_refRS _ _ (scoreOf_real _ _ _ (fun s d => h0 _) (fun d t => h1 _) c8_real) (fun t d => h2 _) _

end Attn

end
-- ==== Proof.KI.Entry.lean ====
import proofs.«407351_j22883585753581_3_alg».proof.Proof.Gen.KernelIdeal.Frame
import proofs.«407351_j22883585753581_3_alg».proof.Proof.Heads

import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable (m : (ℓ : Loc nD τ sig) → Buf (Elt Ideal) ℓ)

abbrev A0 (c : Dev nD) : Attn.SQ.Idx → EReal := m ((c.tc : Thread nD τ).loc main_arg0)

abbrev A1 (c : Dev nD) : Attn.SK.Idx → EReal := m ((c.tc : Thread nD τ).loc main_arg1)

abbrev A2 (c : Dev nD) : Attn.SQ.Idx → EReal := m ((c.tc : Thread nD τ).loc main_arg2)

theorem V_main_v0 (c : Dev nD) : (V m c main_v0 : Attn.SQ.Idx → EReal) = A0 m c := by
  show StableHlo.after hostOps0 (fun b => m (c, b)) (Proc.devRef .tc main_v0) = _
  after_results
  rfl

theorem V_main_v1 (c : Dev nD) : (V m c main_v1 : Attn.SK.Idx → EReal) = A1 m c := by
  show StableHlo.after hostOps0 (fun b => m (c, b)) (Proc.devRef .tc main_v1) = _
  after_results
  rfl

theorem V_main_v2 (c : Dev nD) : (V m c main_v2 : Attn.SQ.Idx → EReal) = A2 m c := by
  show StableHlo.after hostOps0 (fun b => m (c, b)) (Proc.devRef .tc main_v2) = _
  after_results
  rfl

end Cert.KernelIdeal.Hand

end
-- ==== Proof.Blocks.lean ====
import proofs.«407351_j22883585753581_3_alg».proof.Proof.Heads

noncomputable section

namespace Attn

open Idealize.ShloMosaic Idealize.ShloMosaic.ValueIdx

abbrev BQ : Shape := ⟨4, ![1, 1, 512, 64]⟩
abbrev BK : Shape := ⟨4, ![1, 1, 64, 4096]⟩
abbrev BV : Shape := ⟨4, ![1, 1, 4096, 64]⟩

def blkS (x2 : BQ.Idx → EReal) (x3 : BK.Idx → EReal) : Mat 4096 4096 :=
  fun s t => (∑ d : Fin 64, x2 (ix4 (0 : Fin 1) (0 : Fin 1) (rowOf s) d) * x3 (ix4 (0 : Fin 1) (0 : Fin 1) d t)) * c8

def blkV (x4 : BV.Idx → EReal) : Mat 4096 64 := fun t d => x4 (ix4 (0 : Fin 1) (0 : Fin 1) t d)

theorem chunkScore_congr (S S' : Mat 4096 4096) (qi : Fin 8) (r : Fin 512)
    (h : ∀ t, S (gk qi r) t = S' (gk qi r) t) (j : Fin 8) : chunkScore S qi r j = chunkScore S' qi r j := by
  funext c
  simp only [chunkScore, h]

theorem stAfter_congr (S S' : Mat 4096 4096) (V : Mat 4096 64) (qi : Fin 8) (r : Fin 512)
    (h : ∀ t, S (gk qi r) t = S' (gk qi r) t) (n : ℕ) : stAfter S V qi r n = stAfter S' V qi r n := by
  induction n with
  | zero => rfl
  | succ n ih =>
    by_cases hn : n < 8
    · simp only [stAfter, dif_pos hn, ih, chunkScore_congr S S' qi r h]
    · simp only [stAfter, dif_neg hn, ih]

theorem kerOut_congr (S S' : Mat 4096 4096) (V : Mat 4096 64) (qi : Fin 8) (r : Fin 512)
    (h : ∀ t, S (gk qi r) t = S' (gk qi r) t) (d : Fin 64) : kerOut S V qi r d = kerOut S' V qi r d := by
  simp only [kerOut, stFinal, stAfter_congr S S' V qi r h]

theorem tileColSum_congr (S S' : Mat 4096 4096) (V : Mat 4096 64) (qi : Fin 8)
    (h : ∀ r t, S (gk qi r) t = S' (gk qi r) t) (j : Fin 8) (c : Fin 512) : tileColSum S V qi j c = tileColSum S' V qi j c := by
  unfold tileColSum
  refine Finset.sum_congr rfl fun r _ => ?_
  simp only [pStored, rescale, stFinal, stAfter_congr S S' V qi r (h r), chunkScore_congr S S' qi r (h r)]

end Attn

end
-- ==== Proof.KI.Points.lean ====
import proofs.«407351_j22883585753581_3_alg».proof.Proof.KI.Shared
import proofs.«407351_j22883585753581_3_alg».proof.Proof.KI.Entry
import proofs.«407351_j22883585753581_3_alg».proof.Proof.Blocks
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section Points

variable (m : (ℓ : Loc nD τ sig) → Buf (Elt Ideal) ℓ)

theorem t_lt (t : Fin cfg0.N) : t.val < 128 := lt_of_lt_of_eq t.isLt N_eq

def hd (t : Fin cfg0.N) : Fin 16 := ⟨t.val / 8, by have := t_lt t; omega⟩

def qi (t : Fin cfg0.N) : Fin 8 := ⟨t.val % 8, Nat.mod_lt _ (by decide)⟩

abbrev qblk (c : Dev nD) (t : Fin cfg0.N) : Vec Ideal S1x1x512x64 .bf16 := iblk m c 0 t
abbrev kblk (c : Dev nD) (t : Fin cfg0.N) : Vec Ideal S1x1x64x4096 .bf16 := iblk m c 1 t
abbrev vblk (c : Dev nD) (t : Fin cfg0.N) : Vec Ideal S1x1x4096x64 .bf16 := iblk m c 2 t

theorem idx_facts : ∀ t : Fin cfg0.N,
    (win0_0.index t (0 : Fin 4) = 0 ∧ win0_0.index t (1 : Fin 4) = t.val / 8 ∧ win0_0.index t (2 : Fin 4) = t.val % 8 ∧ win0_0.index t (3 : Fin 4) = 0)
    ∧ (win0_1.index t (0 : Fin 4) = 0 ∧ win0_1.index t (1 : Fin 4) = t.val / 8 ∧ win0_1.index t (2 : Fin 4) = 0 ∧ win0_1.index t (3 : Fin 4) = 0)
    ∧ (win0_2.index t (0 : Fin 4) = 0 ∧ win0_2.index t (1 : Fin 4) = t.val / 8 ∧ win0_2.index t (2 : Fin 4) = 0 ∧ win0_2.index t (3 : Fin 4) = 0)
    ∧ (win0_3.index t (0 : Fin 4) = 0 ∧ win0_3.index t (1 : Fin 4) = t.val / 8 ∧ win0_3.index t (2 : Fin 4) = t.val % 8 ∧ win0_3.index t (3 : Fin 4) = 0)
    ∧ (win0_4.index t (0 : Fin 4) = 0 ∧ win0_4.index t (1 : Fin 4) = t.val / 8 ∧ win0_4.index t (2 : Fin 4) = 0 ∧ win0_4.index t (3 : Fin 4) = 0) :=
  (by decide +kernel : ∀ t : Fin grid0.N, _)

theorem qblk_apply (c : Dev nD) (t : Fin cfg0.N) (r : Fin 512) (d : Fin 64) :
    qblk m c t (ix4 (0 : Fin 1) (0 : Fin 1) r d) = A0 m c (ix4 (0 : Fin 1) (hd t) (Attn.gk (qi t) r) d) := by
  obtain ⟨⟨e0, e1, e2, e3⟩, -⟩ := idx_facts t
  unfold qblk iblk
  rw [View.read_apply]
  show V m c main_v0 _ = _
  refine (congrFun (V_main_v0 m c) _).trans ?_
  refine congrArg (A0 m c) (funext fun a => Fin.ext ?_)
  match a with
  | ⟨0, _⟩ => show win0_0.index t (0 : Fin 4) * 1 + 1 * 0 = 0; omega
  | ⟨1, _⟩ => show win0_0.index t (1 : Fin 4) * 1 + 1 * 0 = t.val / 8; omega
  | ⟨2, _⟩ => show win0_0.index t (2 : Fin 4) * 512 + 1 * r.val = 512 * (t.val % 8) + r.val; omega
  | ⟨3, _⟩ => show win0_0.index t (3 : Fin 4) * 64 + 1 * d.val = d.val; omega

theorem kblk_apply (c : Dev nD) (t : Fin cfg0.N) (d : Fin 64) (s : Fin 4096) :
    kblk m c t (ix4 (0 : Fin 1) (0 : Fin 1) d s) = A1 m c (ix4 (0 : Fin 1) (hd t) d s) := by
  obtain ⟨-, ⟨e0, e1, e2, e3⟩, -⟩ := idx_facts t
  unfold kblk iblk
  rw [View.read_apply]
  show V m c main_v1 _ = _
  refine (congrFun (V_main_v1 m c) _).trans ?_
  refine congrArg (A1 m c) (funext fun a => Fin.ext ?_)
  match a with
  | ⟨0, _⟩ => show win0_1.index t (0 : Fin 4) * 1 + 1 * 0 = 0; omega
  | ⟨1, _⟩ => show win0_1.index t (1 : Fin 4) * 1 + 1 * 0 = t.val / 8; omega
  | ⟨2, _⟩ => show win0_1.index t (2 : Fin 4) * 64 + 1 * d.val = d.val; omega
  | ⟨3, _⟩ => show win0_1.index t (3 : Fin 4) * 4096 + 1 * s.val = s.val; omega

theorem vblk_apply (c : Dev nD) (t : Fin cfg0.N) (s : Fin 4096) (d : Fin 64) :
    vblk m c t (ix4 (0 : Fin 1) (0 : Fin 1) s d) = A2 m c (ix4 (0 : Fin 1) (hd t) s d) := by
  obtain ⟨-, -, ⟨e0, e1, e2, e3⟩, -⟩ := idx_facts t
  unfold vblk iblk
  rw [View.read_apply]
  show V m c main_v2 _ = _
  refine (congrFun (V_main_v2 m c) _).trans ?_
  refine congrArg (A2 m c) (funext fun a => Fin.ext ?_)
  match a with
  | ⟨0, _⟩ => show win0_2.index t (0 : Fin 4) * 1 + 1 * 0 = 0; omega
  | ⟨1, _⟩ => show win0_2.index t (1 : Fin 4) * 1 + 1 * 0 = t.val / 8; omega
  | ⟨2, _⟩ => show win0_2.index t (2 : Fin 4) * 4096 + 1 * s.val = s.val; omega
  | ⟨3, _⟩ => show win0_2.index t (3 : Fin 4) * 64 + 1 * d.val = d.val; omega

theorem blkS_eq (c : Dev nD) (t : Fin cfg0.N) (r : Fin 512) (s : Fin 4096) :
    Attn.blkS (qblk m c t) (kblk m c t) (Attn.gk (qi t) r) s = Attn.headS (A0 m c) (A1 m c) (hd t) (Attn.gk (qi t) r) s := by
  unfold Attn.blkS Attn.headS Attn.scoreOf Attn.headQ Attn.headK
  rw [Attn.rowOf_gk]
  refine congrArg (· * Attn.c8) (Finset.sum_congr rfl fun d _ => ?_)
  rw [qblk_apply, kblk_apply]

theorem blkV_eq (c : Dev nD) (t : Fin cfg0.N) : Attn.blkV (vblk m c t) = Attn.headQ (A2 m c) (hd t) := by
  funext s d
  exact vblk_apply m c t s d

end Points

end Cert.KernelIdeal.Hand

end
-- ==== Proof.KI.PayRows.lean ====
import proofs.«407351_j22883585753581_3_alg».proof.Proof.Gen.KernelIdeal.Skeleton
import proofs.«407351_j22883585753581_3_alg».proof.Proof.Heads
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx Idealize.SL.Sem

section Layout
variable {α : Type}

theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

theorem lhs_qk_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem lhs_qk_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
theorem rhs_qk_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
theorem rhs_qk_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

theorem matmul_qk_apply (x : FVec Ideal S512x64 .bf16) (w : FVec Ideal S64x512 .bf16) (r c : Fin 512) :
    matmul dot_S512x64_S64x512_S512x512_1_0_0_1_n_n none x w (constant (F := Ideal) S512x512 .f32 0x00000000#32) (ix2 r c)
      = ∑ d : Fin 64, x (ix2 r d) * w (ix2 d c) := by
  simp only [matmul]
  rw [Ideal.matmul_constant_zero_apply, ← Equiv.sum_comp (ValueIdx.contrEquiv1 dot_S512x64_S64x512_S512x512_1_0_0_1_n_n 64 rfl rfl).symm]
  refine Finset.sum_congr rfl fun k _ => ?_
  have hk := ValueIdx.contrEquiv1_symm_val dot_S512x64_S64x512_S512x512_1_0_0_1_n_n 64 rfl rfl k
  have el : dot_S512x64_S64x512_S512x512_1_0_0_1_n_n.lhsIdx (ix2 r c) ((ValueIdx.contrEquiv1 dot_S512x64_S64x512_S512x512_1_0_0_1_n_n 64 rfl rfl).symm k) = ix2 r k := funext fun a => Fin.ext (by
    match a with
    | ⟨0, _⟩ => exact lhs_qk_0 _ _
    | ⟨1, _⟩ => exact (lhs_qk_1 _ _).trans hk)
  have er : dot_S512x64_S64x512_S512x512_1_0_0_1_n_n.rhsIdx (ix2 r c) ((ValueIdx.contrEquiv1 dot_S512x64_S64x512_S512x512_1_0_0_1_n_n 64 rfl rfl).symm k) = ix2 k c := funext fun a => Fin.ext (by
    match a with
    | ⟨0, _⟩ => exact (rhs_qk_0 _ _).trans hk
    | ⟨1, _⟩ => exact rhs_qk_1 _ _)
  rw [el, er]

theorem lhs_pv_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem lhs_pv_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
theorem rhs_pv_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
theorem rhs_pv_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

theorem matmul_pv_apply (p : FVec Ideal S512x512 .bf16) (w : FVec Ideal S512x64 .bf16) (r : Fin 512) (d : Fin 64) :
    matmul dot_S512x512_S512x64_S512x64_1_0_0_1_n_n none p w (constant (F := Ideal) S512x64 .f32 0x00000000#32) (ix2 r d)
      = ∑ c : Fin 512, p (ix2 r c) * w (ix2 c d) := by
  simp only [matmul]
  rw [Ideal.matmul_constant_zero_apply, ← Equiv.sum_comp (ValueIdx.contrEquiv1 dot_S512x512_S512x64_S512x64_1_0_0_1_n_n 512 rfl rfl).symm]
  refine Finset.sum_congr rfl fun k _ => ?_
  have hk := ValueIdx.contrEquiv1_symm_val dot_S512x512_S512x64_S512x64_1_0_0_1_n_n 512 rfl rfl k
  have el : dot_S512x512_S512x64_S512x64_1_0_0_1_n_n.lhsIdx (ix2 r d) ((ValueIdx.contrEquiv1 dot_S512x512_S512x64_S512x64_1_0_0_1_n_n 512 rfl rfl).symm k) = ix2 r k := funext fun a => Fin.ext (by
    match a with
    | ⟨0, _⟩ => exact lhs_pv_0 _ _
    | ⟨1, _⟩ => exact (lhs_pv_1 _ _).trans hk)
  have er : dot_S512x512_S512x64_S512x64_1_0_0_1_n_n.rhsIdx (ix2 r d) ((ValueIdx.contrEquiv1 dot_S512x512_S512x64_S512x64_1_0_0_1_n_n 512 rfl rfl).symm k) = ix2 k d := funext fun a => Fin.ext (by
    match a with
    | ⟨0, _⟩ => exact (rhs_pv_0 _ _).trans hk
    | ⟨1, _⟩ => exact rhs_pv_1 _ _)
  rw [el, er]

theorem scoresU (v4 : FVec Ideal S512x64 .bf16) (v105 : FVec Ideal S1x1x64x512 .bf16) (r c : Fin 512) :
    k0_pay7 (F := Ideal) v4 v105 (ix2 r c)
      = (∑ d : Fin 64, v4 (ix2 r d) * v105 (ix4 (0 : Fin 1) (0 : Fin 1) d c)) * Attn.c8 := by
  unfold k0_pay7
  refine (mulf_apply _ _ _).trans ?_
  rw [matmul_qk_apply]
  refine congrArg₂ (· * ·) (Finset.sum_congr rfl fun d _ => ?_) rfl
  exact congrArg (v4 (ix2 r d) * ·) (shapeCast_11ab_ab_apply v105 _ d c)

theorem neg_big_eq : Named.named (F := Ideal) κ "neg_big" (φ := .f32) 0xF149F2CA#32 = (⊥ : EReal) :=
  IdealRules.named_const.ideal_named_scalar _ _ _ _ rfl

theorem mask_apply (r c : Fin 512) : (k0_pay108 (ix2 r c) = 1#1) ↔ c.val ≤ r.val := by
  unfold k0_pay108
  show IntOp.cmpi .sle (iota .tc S512x512 32 [1] iota_S512x512_d1_w32 (ix2 r c)) (iota .tc S512x512 32 [0] iota_S512x512_d0_w32 (ix2 r c)) = 1#1 ↔ _
  rw [iota_single_apply, iota_single_apply, IntOp.cmpi_sle]
  show (BitVec.ofNat 32 c.val).toInt ≤ (BitVec.ofNat 32 r.val).toInt ↔ _
  have e : ∀ n : ℕ, n < 512 → (BitVec.ofNat 32 n).toInt = (n : ℤ) := fun n hn => by
    have hm : n % 2 ^ 32 = n := Nat.mod_eq_of_lt (by omega)
    rw [BitVec.toInt_eq_toNat_of_lt (by rw [BitVec.toNat_ofNat, hm]; omega), BitVec.toNat_ofNat, hm]
  rw [e c.val c.isLt, e r.val r.isLt]
  exact Int.ofNat_le

theorem scoresM (v4 : FVec Ideal S512x64 .bf16) (v105 : FVec Ideal S1x1x64x512 .bf16) (r c : Fin 512) :
    k0_pay13 (F := Ideal) v4 k0_pay108 v105 (ix2 r c)
      = if c.val ≤ r.val then (∑ d : Fin 64, v4 (ix2 r d) * v105 (ix4 (0 : Fin 1) (0 : Fin 1) d c)) * Attn.c8 else ⊥ := by
  have hs : k0_pay13 (F := Ideal) v4 k0_pay108 v105 (ix2 r c)
      = Scalar.select (k0_pay108 (ix2 r c)) (k0_pay7 (F := Ideal) v4 v105 (ix2 r c)) (Named.named (F := Ideal) κ "neg_big" (φ := .f32) 0xF149F2CA#32) := rfl
  rw [hs, neg_big_eq, scoresU]
  by_cases h : c.val ≤ r.val
  · rw [if_pos h, (mask_apply r c).mpr h, select_one]
  · rw [if_neg h, eq_zero_of_ne_one (fun h1 => h ((mask_apply r c).mp h1)), select_zero]

theorem lift_row (r k : Fin 512) : reduces_S512x512_S512.lift (ix1 r) k = ix2 r k :=
  funext fun a => Fin.ext (by
    match a with
    | ⟨0, _⟩ => rfl
    | ⟨1, _⟩ => rfl)

theorem ofBits_neg_inf : Ideal.ofBits .f32 0xFF800000#32 = (⊥ : EReal) := by
  simp [Ideal.ofBits, Ideal.ieee]

theorem rowMax_apply (σ : FVec Ideal S512x512 .f32) (r : Fin 512) :
    shapeCast S512x1 (multiReduction (F := Ideal) .maximumf [1] S512 σ 0xFF800000#32 reduces_S512x512_S512 (.inl rfl) rfl)
        shapeCasts_S512_S512x1 (ix2 r (0 : Fin 1))
      = (Finset.univ : Finset (Fin 512)).fold max ⊥ fun c => σ (ix2 r c) := by
  refine (shapeCast_a_a1_apply _ _ r 0).trans ?_
  refine (Ideal.multiReduction_maximumf_single σ _ reduces_S512x512_S512 _ _ (ix1 r)).trans ?_
  show (Finset.univ : Finset (Fin 512)).fold max (Ideal.ofBits .f32 0xFF800000#32) (σ ∘ reduces_S512x512_S512.lift (ix1 r)) = _
  rw [ofBits_neg_inf]
  exact congrArg (fun f => (Finset.univ : Finset (Fin 512)).fold max ⊥ f) (funext fun c => congrArg σ (lift_row r c))

theorem rowSum_apply (σ : FVec Ideal S512x512 .f32) (r : Fin 512) :
    shapeCast S512x1 (multiReduction (F := Ideal) .add [1] S512 σ 0x00000000#32 reduces_S512x512_S512 (.inl rfl) rfl)
        shapeCasts_S512_S512x1 (ix2 r (0 : Fin 1))
      = ∑ c : Fin 512, σ (ix2 r c) := by
  refine (shapeCast_a_a1_apply _ _ r 0).trans ?_
  refine (Ideal.multiReduction_add_single σ _ reduces_S512x512_S512 _ _ (ix1 r)).trans ?_
  show ∑ c : Fin 512, σ (reduces_S512x512_S512.lift (ix1 r) c) = _
  exact Finset.sum_congr rfl fun c _ => congrArg σ (lift_row r c)

theorem maxU (v4 : FVec Ideal S512x64 .bf16) (v105 : FVec Ideal S1x1x64x512 .bf16) (v110 : FVec Ideal S512x1 .f32) (r : Fin 512) :
    k0_pay8 (F := Ideal) v4 v105 v110 (ix2 r (0 : Fin 1))
      = max (v110 (ix2 r (0 : Fin 1))) ((Finset.univ : Finset (Fin 512)).fold max ⊥ fun c => k0_pay7 (F := Ideal) v4 v105 (ix2 r c)) := by
  unfold k0_pay8
  refine (maximumf_apply _ _ _).trans ?_
  exact congrArg (max (v110 (ix2 r (0 : Fin 1)))) (rowMax_apply _ r)

theorem alphaU (v4 : FVec Ideal S512x64 .bf16) (v105 : FVec Ideal S1x1x64x512 .bf16) (v110 : FVec Ideal S512x1 .f32) (r : Fin 512) :
    k0_pay9 (F := Ideal) v4 v105 v110 (ix2 r (0 : Fin 1))
      = Ideal.exp (v110 (ix2 r (0 : Fin 1)) - k0_pay8 (F := Ideal) v4 v105 v110 (ix2 r (0 : Fin 1))) := by
  unfold k0_pay9
  rfl

theorem probU (v4 : FVec Ideal S512x64 .bf16) (v105 : FVec Ideal S1x1x64x512 .bf16) (v110 : FVec Ideal S512x1 .f32) (r c : Fin 512) :
    k0_pay10 (F := Ideal) v4 v105 v110 (ix2 r c)
      = Ideal.exp (k0_pay7 (F := Ideal) v4 v105 (ix2 r c) - k0_pay8 (F := Ideal) v4 v105 v110 (ix2 r (0 : Fin 1))) := by
  unfold k0_pay10
  show Ideal.exp (k0_pay7 (F := Ideal) v4 v105 (ix2 r c)
    - broadcastTo S512x512 (k0_pay8 (F := Ideal) v4 v105 v110) broadcasts_S512x1_S512x512 (ix2 r c)) = _
  exact congrArg (fun t => Ideal.exp (k0_pay7 (F := Ideal) v4 v105 (ix2 r c) - t)) (broadcastTo_a1_ab_apply _ _ r c)

theorem denU (v4 : FVec Ideal S512x64 .bf16) (v105 : FVec Ideal S1x1x64x512 .bf16) (v110 v119 : FVec Ideal S512x1 .f32) (r : Fin 512) :
    k0_pay11 (F := Ideal) v4 v105 v110 v119 (ix2 r (0 : Fin 1))
      = k0_pay9 (F := Ideal) v4 v105 v110 (ix2 r (0 : Fin 1)) * v119 (ix2 r (0 : Fin 1))
        + ∑ c : Fin 512, k0_pay10 (F := Ideal) v4 v105 v110 (ix2 r c) := by
  unfold k0_pay11
  refine (congrFun (shapeCast_self _ _) _).trans ?_
  refine (addf_apply _ _ _).trans ?_
  exact congrArg₂ (· + ·) (mulf_apply _ _ _) (rowSum_apply _ r)

theorem numU (v4 : FVec Ideal S512x64 .bf16) (v105 : FVec Ideal S1x1x64x512 .bf16) (v110 : FVec Ideal S512x1 .f32)
    (v127 : FVec Ideal S1x1x512x64 .bf16) (v129 : FVec Ideal S512x64 .f32) (r : Fin 512) (d : Fin 64) :
    k0_pay12 (F := Ideal) v4 v105 v110 v127 v129 (ix2 r d)
      = k0_pay9 (F := Ideal) v4 v105 v110 (ix2 r (0 : Fin 1)) * v129 (ix2 r d)
        + ∑ c : Fin 512, k0_pay10 (F := Ideal) v4 v105 v110 (ix2 r c) * v127 (ix4 (0 : Fin 1) (0 : Fin 1) c d) := by
  unfold k0_pay12
  refine (congrFun (shapeCast_self _ _) _).trans ?_
  refine (addf_apply _ _ _).trans ?_
  refine congrArg₂ (· + ·) ?_ ?_
  · refine (mulf_apply _ _ _).trans ?_
    exact congrArg (· * v129 (ix2 r d)) (broadcastTo_a1_ab_apply _ _ r d)
  · refine (matmul_pv_apply _ _ r d).trans ?_
    refine Finset.sum_congr rfl fun c _ => ?_
    exact congrArg₂ (· * ·) (truncf_apply _ _ _) (shapeCast_11ab_ab_apply v127 _ c d)

theorem maxM (v4 : FVec Ideal S512x64 .bf16) (v19 : IVec S512x512 1) (v105 : FVec Ideal S1x1x64x512 .bf16) (v112 : FVec Ideal S512x1 .f32) (r : Fin 512) :
    k0_pay14 (F := Ideal) v4 v19 v105 v112 (ix2 r (0 : Fin 1))
      = max (v112 (ix2 r (0 : Fin 1))) ((Finset.univ : Finset (Fin 512)).fold max ⊥ fun c => k0_pay13 (F := Ideal) v4 v19 v105 (ix2 r c)) := by
  unfold k0_pay14
  refine (maximumf_apply _ _ _).trans ?_
  exact congrArg (max (v112 (ix2 r (0 : Fin 1)))) (rowMax_apply _ r)

theorem alphaM (v4 : FVec Ideal S512x64 .bf16) (v19 : IVec S512x512 1) (v105 : FVec Ideal S1x1x64x512 .bf16) (v112 : FVec Ideal S512x1 .f32) (r : Fin 512) :
    k0_pay15 (F := Ideal) v4 v19 v105 v112 (ix2 r (0 : Fin 1))
      = Ideal.exp (v112 (ix2 r (0 : Fin 1)) - k0_pay14 (F := Ideal) v4 v19 v105 v112 (ix2 r (0 : Fin 1))) := by
  unfold k0_pay15
  rfl

theorem probM (v4 : FVec Ideal S512x64 .bf16) (v19 : IVec S512x512 1) (v105 : FVec Ideal S1x1x64x512 .bf16) (v112 : FVec Ideal S512x1 .f32) (r c : Fin 512) :
    k0_pay16 (F := Ideal) v4 v19 v105 v112 (ix2 r c)
      = Ideal.exp (k0_pay13 (F := Ideal) v4 v19 v105 (ix2 r c) - k0_pay14 (F := Ideal) v4 v19 v105 v112 (ix2 r (0 : Fin 1))) := by
  unfold k0_pay16
  show Ideal.exp (k0_pay13 (F := Ideal) v4 v19 v105 (ix2 r c)
    - broadcastTo S512x512 (k0_pay14 (F := Ideal) v4 v19 v105 v112) broadcasts_S512x1_S512x512 (ix2 r c)) = _
  exact congrArg (fun t => Ideal.exp (k0_pay13 (F := Ideal) v4 v19 v105 (ix2 r c) - t)) (broadcastTo_a1_ab_apply _ _ r c)

theorem denM (v4 : FVec Ideal S512x64 .bf16) (v19 : IVec S512x512 1) (v105 : FVec Ideal S1x1x64x512 .bf16) (v112 v121 : FVec Ideal S512x1 .f32) (r : Fin 512) :
    k0_pay17 (F := Ideal) v4 v19 v105 v112 v121 (ix2 r (0 : Fin 1))
      = k0_pay15 (F := Ideal) v4 v19 v105 v112 (ix2 r (0 : Fin 1)) * v121 (ix2 r (0 : Fin 1))
        + ∑ c : Fin 512, k0_pay16 (F := Ideal) v4 v19 v105 v112 (ix2 r c) := by
  unfold k0_pay17
  refine (congrFun (shapeCast_self _ _) _).trans ?_
  refine (addf_apply _ _ _).trans ?_
  exact congrArg₂ (· + ·) (mulf_apply _ _ _) (rowSum_apply _ r)

theorem numM (v4 : FVec Ideal S512x64 .bf16) (v19 : IVec S512x512 1) (v105 : FVec Ideal S1x1x64x512 .bf16) (v112 : FVec Ideal S512x1 .f32)
    (v129 : FVec Ideal S1x1x512x64 .bf16) (v131 : FVec Ideal S512x64 .f32) (r : Fin 512) (d : Fin 64) :
    k0_pay18 (F := Ideal) v4 v19 v105 v112 v129 v131 (ix2 r d)
      = k0_pay15 (F := Ideal) v4 v19 v105 v112 (ix2 r (0 : Fin 1)) * v131 (ix2 r d)
        + ∑ c : Fin 512, k0_pay16 (F := Ideal) v4 v19 v105 v112 (ix2 r c) * v129 (ix4 (0 : Fin 1) (0 : Fin 1) c d) := by
  unfold k0_pay18
  refine (congrFun (shapeCast_self _ _) _).trans ?_
  refine (addf_apply _ _ _).trans ?_
  refine congrArg₂ (· + ·) ?_ ?_
  · refine (mulf_apply _ _ _).trans ?_
    exact congrArg (· * v131 (ix2 r d)) (broadcastTo_a1_ab_apply _ _ r d)
  · refine (matmul_pv_apply _ _ r d).trans ?_
    refine Finset.sum_congr rfl fun c _ => ?_
    exact congrArg₂ (· * ·) (truncf_apply _ _ _) (shapeCast_11ab_ab_apply v129 _ c d)

end Cert.KernelIdeal.Hand

end
-- ==== Proof.KI.Steps.lean ====
import proofs.«407351_j22883585753581_3_alg».proof.Proof.KI.PayRows
import proofs.«407351_j22883585753581_3_alg».proof.Proof.Blocks

noncomputable section

namespace Cert.KernelIdeal.Hand

open Cert.KernelIdeal Cert.KernelIdeal.Gen
open Idealize.ShloMosaic Idealize.ShloMosaic.ValueIdx Idealize.SL.Sem

def RowIs (m l : FVec Ideal S512x1 .f32) (acc : FVec Ideal S512x64 .f32) (r : Fin 512) (st : Attn.RowSt) : Prop :=
  m (ix2 r (0 : Fin 1)) = st.m ∧ l (ix2 r (0 : Fin 1)) = st.l ∧ ∀ d : Fin 64, acc (ix2 r d) = st.acc d

theorem stAfter_succ (S : Attn.Mat 4096 4096) (V : Attn.Mat 4096 64) (qi : Fin 8) (r : Fin 512) (k : ℕ) (hk : k < 8) :
    Attn.stAfter S V qi r (k + 1)
      = Attn.rowStep (Attn.chunkScore S qi r ⟨k, hk⟩) (Attn.chunkV V ⟨k, hk⟩) (Attn.stAfter S V qi r k) := by
  rw [Attn.stAfter, dif_pos hk]

theorem rowIs_init (S : Attn.Mat 4096 4096) (V : Attn.Mat 4096 64) (qi : Fin 8) (r : Fin 512) :
    RowIs (fun _ => (⊥ : EReal)) (fun _ => (0 : EReal)) (fun _ => (0 : EReal)) r (Attn.stAfter S V qi r 0) :=
  ⟨rfl, rfl, fun _ => rfl⟩

section Steps

variable (S : Attn.Mat 4096 4096) (V : Attn.Mat 4096 64) (qi : Fin 8) (r : Fin 512)
variable (v4 : FVec Ideal S512x64 .bf16) (K : FVec Ideal S1x1x64x512 .bf16) (W : FVec Ideal S1x1x512x64 .bf16)
variable (m l : FVec Ideal S512x1 .f32) (acc : FVec Ideal S512x64 .f32)

theorem scoresU_chunk (k : ℕ) (hk : k < 8) (hlt : k < qi.val)
    (hS : ∀ c : Fin 512, (∑ d : Fin 64, v4 (ix2 r d) * K (ix4 (0 : Fin 1) (0 : Fin 1) d c)) * Attn.c8 = S (Attn.gk qi r) (Attn.gk ⟨k, hk⟩ c)) :
    (fun c : Fin 512 => k0_pay7 (F := Ideal) v4 K (ix2 r c)) = Attn.chunkScore S qi r ⟨k, hk⟩ := by
  funext c
  rw [scoresU, hS c]
  simp only [Attn.chunkScore, if_pos hlt]

theorem scoresM_chunk (k : ℕ) (hk : k < 8) (heq : k = qi.val)
    (hS : ∀ c : Fin 512, (∑ d : Fin 64, v4 (ix2 r d) * K (ix4 (0 : Fin 1) (0 : Fin 1) d c)) * Attn.c8 = S (Attn.gk qi r) (Attn.gk ⟨k, hk⟩ c)) :
    (fun c : Fin 512 => k0_pay13 (F := Ideal) v4 k0_pay108 K (ix2 r c)) = Attn.chunkScore S qi r ⟨k, hk⟩ := by
  funext c
  rw [scoresM]
  have hnlt : ¬ k < qi.val := by omega
  simp only [Attn.chunkScore, if_neg hnlt, hS c]

theorem rowIs_succU (k : ℕ) (hk : k < 8) (hlt : k < qi.val)
    (hS : ∀ c : Fin 512, (∑ d : Fin 64, v4 (ix2 r d) * K (ix4 (0 : Fin 1) (0 : Fin 1) d c)) * Attn.c8 = S (Attn.gk qi r) (Attn.gk ⟨k, hk⟩ c))
    (hV : ∀ (c : Fin 512) (d : Fin 64), W (ix4 (0 : Fin 1) (0 : Fin 1) c d) = V (Attn.gk ⟨k, hk⟩ c) d)
    (h : RowIs m l acc r (Attn.stAfter S V qi r k)) :
    RowIs (k0_pay8 (F := Ideal) v4 K m) (k0_pay11 (F := Ideal) v4 K m l) (k0_pay12 (F := Ideal) v4 K m W acc) r
      (Attn.stAfter S V qi r (k + 1)) := by
  obtain ⟨hm, hl, hacc⟩ := h
  have hσ := scoresU_chunk S qi r v4 K k hk hlt hS
  have hM : k0_pay8 (F := Ideal) v4 K m (ix2 r (0 : Fin 1))
      = max (Attn.stAfter S V qi r k).m (Finset.univ.fold max ⊥ (Attn.chunkScore S qi r ⟨k, hk⟩)) := by
    rw [maxU, hσ, hm]
  have hP : ∀ c : Fin 512, k0_pay10 (F := Ideal) v4 K m (ix2 r c)
      = Ideal.exp (Attn.chunkScore S qi r ⟨k, hk⟩ c
          - max (Attn.stAfter S V qi r k).m (Finset.univ.fold max ⊥ (Attn.chunkScore S qi r ⟨k, hk⟩))) := by
    intro c
    rw [probU, hM, congrFun hσ c]
  rw [stAfter_succ S V qi r k hk]
  refine ⟨hM, ?_, fun d => ?_⟩
  · rw [denU, alphaU, hM, hm, hl]
    simp only [Attn.rowStep, hP]
  · rw [numU, alphaU, hM, hm, hacc d]
    simp only [Attn.rowStep, Attn.chunkV, hP, hV]

theorem prob_succU (k : ℕ) (hk : k < 8) (hlt : k < qi.val)
    (hS : ∀ c : Fin 512, (∑ d : Fin 64, v4 (ix2 r d) * K (ix4 (0 : Fin 1) (0 : Fin 1) d c)) * Attn.c8 = S (Attn.gk qi r) (Attn.gk ⟨k, hk⟩ c))
    (hm : m (ix2 r (0 : Fin 1)) = (Attn.stAfter S V qi r k).m) (c : Fin 512) :
    k0_pay10 (F := Ideal) v4 K m (ix2 r c) = Attn.pStored S V qi r ⟨k, hk⟩ c := by
  have hσ := scoresU_chunk S qi r v4 K k hk hlt hS
  rw [probU, maxU, hσ, hm, congrFun hσ c]
  simp only [Attn.pStored, stAfter_succ S V qi r k hk, Attn.rowStep]

theorem rowIs_succM (k : ℕ) (hk : k < 8) (heq : k = qi.val)
    (hS : ∀ c : Fin 512, (∑ d : Fin 64, v4 (ix2 r d) * K (ix4 (0 : Fin 1) (0 : Fin 1) d c)) * Attn.c8 = S (Attn.gk qi r) (Attn.gk ⟨k, hk⟩ c))
    (hV : ∀ (c : Fin 512) (d : Fin 64), W (ix4 (0 : Fin 1) (0 : Fin 1) c d) = V (Attn.gk ⟨k, hk⟩ c) d)
    (h : RowIs m l acc r (Attn.stAfter S V qi r k)) :
    RowIs (k0_pay14 (F := Ideal) v4 k0_pay108 K m) (k0_pay17 (F := Ideal) v4 k0_pay108 K m l)
      (k0_pay18 (F := Ideal) v4 k0_pay108 K m W acc) r (Attn.stAfter S V qi r (k + 1)) := by
  obtain ⟨hm, hl, hacc⟩ := h
  have hσ := scoresM_chunk S qi r v4 K k hk heq hS
  have hM : k0_pay14 (F := Ideal) v4 k0_pay108 K m (ix2 r (0 : Fin 1))
      = max (Attn.stAfter S V qi r k).m (Finset.univ.fold max ⊥ (Attn.chunkScore S qi r ⟨k, hk⟩)) := by
    rw [maxM, hσ, hm]
  have hP : ∀ c : Fin 512, k0_pay16 (F := Ideal) v4 k0_pay108 K m (ix2 r c)
      = Ideal.exp (Attn.chunkScore S qi r ⟨k, hk⟩ c
          - max (Attn.stAfter S V qi r k).m (Finset.univ.fold max ⊥ (Attn.chunkScore S qi r ⟨k, hk⟩))) := by
    intro c
    rw [probM, hM, congrFun hσ c]
  rw [stAfter_succ S V qi r k hk]
  refine ⟨hM, ?_, fun d => ?_⟩
  · rw [denM, alphaM, hM, hm, hl]
    simp only [Attn.rowStep, hP]
  · rw [numM, alphaM, hM, hm, hacc d]
    simp only [Attn.rowStep, Attn.chunkV, hP, hV]

theorem prob_succM (k : ℕ) (hk : k < 8) (heq : k = qi.val)
    (hS : ∀ c : Fin 512, (∑ d : Fin 64, v4 (ix2 r d) * K (ix4 (0 : Fin 1) (0 : Fin 1) d c)) * Attn.c8 = S (Attn.gk qi r) (Attn.gk ⟨k, hk⟩ c))
    (hm : m (ix2 r (0 : Fin 1)) = (Attn.stAfter S V qi r k).m) (c : Fin 512) :
    k0_pay16 (F := Ideal) v4 k0_pay108 K m (ix2 r c) = Attn.pStored S V qi r ⟨k, hk⟩ c := by
  have hσ := scoresM_chunk S qi r v4 K k hk heq hS
  rw [probM, maxM, hσ, hm, congrFun hσ c]
  simp only [Attn.pStored, stAfter_succ S V qi r k hk, Attn.rowStep]

theorem kerOut_of_rowIs (h : RowIs m l acc r (Attn.stFinal S V qi r)) (d : Fin 64) :
    acc (ix2 r d) * Ideal.div 1 (l (ix2 r (0 : Fin 1))) = Attn.kerOut S V qi r d := by
  obtain ⟨_, hl, hacc⟩ := h
  rw [Attn.kerOut, hacc d, hl]

end Steps

structure Bufs where
  m : FVec Ideal S512x1 .f32
  l : FVec Ideal S512x1 .f32
  acc : FVec Ideal S512x64 .f32

def Bufs.init : Bufs := ⟨fun _ => (⊥ : EReal), fun _ => (0 : EReal), fun _ => (0 : EReal)⟩

def Bufs.stepU (b : Bufs) (v4 : FVec Ideal S512x64 .bf16) (K : FVec Ideal S1x1x64x512 .bf16) (W : FVec Ideal S1x1x512x64 .bf16) : Bufs :=
  ⟨k0_pay8 (F := Ideal) v4 K b.m, k0_pay11 (F := Ideal) v4 K b.m b.l, k0_pay12 (F := Ideal) v4 K b.m W b.acc⟩

def Bufs.stepM (b : Bufs) (v4 : FVec Ideal S512x64 .bf16) (K : FVec Ideal S1x1x64x512 .bf16) (W : FVec Ideal S1x1x512x64 .bf16) : Bufs :=
  ⟨k0_pay14 (F := Ideal) v4 k0_pay108 K b.m, k0_pay17 (F := Ideal) v4 k0_pay108 K b.m b.l, k0_pay18 (F := Ideal) v4 k0_pay108 K b.m W b.acc⟩

def Bufs.RowIs (b : Bufs) (r : Fin 512) (st : Attn.RowSt) : Prop := Hand.RowIs b.m b.l b.acc r st

section Blocks

variable (x2 : Attn.BQ.Idx → EReal) (x3 : Attn.BK.Idx → EReal) (x4 : Attn.BV.Idx → EReal)
variable (q : FVec Ideal S512x64 .bf16) (Kf : Fin 8 → FVec Ideal S1x1x64x512 .bf16) (Wf : Fin 8 → FVec Ideal S1x1x512x64 .bf16)

theorem blk_scores (hq : ∀ (r : Fin 512) (d : Fin 64), q (ix2 r d) = x2 (ix4 (0 : Fin 1) (0 : Fin 1) r d))
    (hK : ∀ (j : Fin 8) (d : Fin 64) (c : Fin 512), Kf j (ix4 (0 : Fin 1) (0 : Fin 1) d c) = x3 (ix4 (0 : Fin 1) (0 : Fin 1) d (Attn.gk j c)))
    (qi j : Fin 8) (r c : Fin 512) :
    (∑ d : Fin 64, q (ix2 r d) * Kf j (ix4 (0 : Fin 1) (0 : Fin 1) d c)) * Attn.c8
      = Attn.blkS x2 x3 (Attn.gk qi r) (Attn.gk j c) := by
  simp only [Attn.blkS, Attn.rowOf_gk, hq, hK]

def bufsAfter : ℕ → Bufs
  | 0 => Bufs.init
  | k + 1 => if h : k < 8 then (bufsAfter k).stepU q (Kf ⟨k, h⟩) (Wf ⟨k, h⟩) else bufsAfter k

def bufsFinal (qi : Fin 8) : Bufs := (bufsAfter q Kf Wf qi.val).stepM q (Kf qi) (Wf qi)

theorem bufsAfter_succ (k : ℕ) (h : k < 8) :
    bufsAfter q Kf Wf (k + 1) = (bufsAfter q Kf Wf k).stepU q (Kf ⟨k, h⟩) (Wf ⟨k, h⟩) := by
  rw [bufsAfter, dif_pos h]

variable (hq : ∀ (r : Fin 512) (d : Fin 64), q (ix2 r d) = x2 (ix4 (0 : Fin 1) (0 : Fin 1) r d))
variable (hK : ∀ (j : Fin 8) (d : Fin 64) (c : Fin 512), Kf j (ix4 (0 : Fin 1) (0 : Fin 1) d c) = x3 (ix4 (0 : Fin 1) (0 : Fin 1) d (Attn.gk j c)))
variable (hW : ∀ (j : Fin 8) (c : Fin 512) (d : Fin 64), Wf j (ix4 (0 : Fin 1) (0 : Fin 1) c d) = x4 (ix4 (0 : Fin 1) (0 : Fin 1) (Attn.gk j c) d))
include hq hK hW

theorem rowIs_bufsAfter (qi : Fin 8) (r : Fin 512) (k : ℕ) (hk : k ≤ qi.val) :
    (bufsAfter q Kf Wf k).RowIs r (Attn.stAfter (Attn.blkS x2 x3) (Attn.blkV x4) qi r k) := by
  induction k with
  | zero => exact rowIs_init _ _ qi r
  | succ k ih =>
    have h8 : k < 8 := by have := qi.isLt; omega
    rw [bufsAfter_succ q Kf Wf k h8]
    exact rowIs_succU _ _ qi r _ _ _ _ _ _ k h8 (by omega) (fun c => blk_scores x2 x3 q Kf hq hK qi ⟨k, h8⟩ r c)
      (fun c d => hW ⟨k, h8⟩ c d) (ih (by omega))

theorem rowIs_bufsFinal (qi : Fin 8) (r : Fin 512) :
    (bufsFinal q Kf Wf qi).RowIs r (Attn.stFinal (Attn.blkS x2 x3) (Attn.blkV x4) qi r) :=
  rowIs_succM _ _ qi r _ _ _ _ _ _ qi.val qi.isLt rfl (fun c => blk_scores x2 x3 q Kf hq hK qi qi r c)
    (fun c d => hW qi c d) (rowIs_bufsAfter x2 x3 x4 q Kf Wf hq hK hW qi r qi.val le_rfl)

theorem out_bufsFinal (qi : Fin 8) (r : Fin 512) (d : Fin 64) :
    (bufsFinal q Kf Wf qi).acc (ix2 r d) * Ideal.div 1 ((bufsFinal q Kf Wf qi).l (ix2 r (0 : Fin 1)))
      = Attn.kerOut (Attn.blkS x2 x3) (Attn.blkV x4) qi r d :=
  kerOut_of_rowIs _ _ qi r _ _ _ (rowIs_bufsFinal x2 x3 x4 q Kf Wf hq hK hW qi r) d

theorem m_bufsAfter (qi : Fin 8) (k : ℕ) (hk : k ≤ qi.val) (r : Fin 512) :
    (bufsAfter q Kf Wf k).m (ix2 r (0 : Fin 1)) = (Attn.stAfter (Attn.blkS x2 x3) (Attn.blkV x4) qi r k).m :=
  (rowIs_bufsAfter x2 x3 x4 q Kf Wf hq hK hW qi r k hk).1

theorem m_bufsFinal (qi : Fin 8) (r : Fin 512) :
    (bufsFinal q Kf Wf qi).m (ix2 r (0 : Fin 1)) = (Attn.stFinal (Attn.blkS x2 x3) (Attn.blkV x4) qi r).m :=
  (rowIs_bufsFinal x2 x3 x4 q Kf Wf hq hK hW qi r).1

theorem l_bufsFinal (qi : Fin 8) (r : Fin 512) :
    (bufsFinal q Kf Wf qi).l (ix2 r (0 : Fin 1)) = (Attn.stFinal (Attn.blkS x2 x3) (Attn.blkV x4) qi r).l :=
  (rowIs_bufsFinal x2 x3 x4 q Kf Wf hq hK hW qi r).2.1

theorem prob_bufsU (qi j : Fin 8) (hj : j.val < qi.val) (r c : Fin 512) :
    k0_pay10 (F := Ideal) q (Kf j) (bufsAfter q Kf Wf j.val).m (ix2 r c)
      = Attn.pStored (Attn.blkS x2 x3) (Attn.blkV x4) qi r j c :=
  prob_succU _ _ qi r _ _ _ j.val j.isLt hj (fun c => blk_scores x2 x3 q Kf hq hK qi j r c)
    (m_bufsAfter x2 x3 x4 q Kf Wf hq hK hW qi j.val (by omega) r) c

theorem prob_bufsM (qi : Fin 8) (r c : Fin 512) :
    k0_pay16 (F := Ideal) q k0_pay108 (Kf qi) (bufsAfter q Kf Wf qi.val).m (ix2 r c)
      = Attn.pStored (Attn.blkS x2 x3) (Attn.blkV x4) qi r qi c :=
  prob_succM _ _ qi r _ _ _ qi.val qi.isLt rfl (fun c => blk_scores x2 x3 q Kf hq hK qi qi r c)
    (m_bufsAfter x2 x3 x4 q Kf Wf hq hK hW qi qi.val le_rfl r) c

end Blocks

end Cert.KernelIdeal.Hand

end
-- ==== Proof.KI.PayCopies.lean ====
import proofs.«407351_j22883585753581_3_alg».proof.Proof.Gen.KernelIdeal.Skeleton

noncomputable section

namespace Cert.KernelIdeal.Hand

open Idealize.ShloMosaic
open Cert.KernelIdeal Cert.KernelIdeal.Gen
/-- Each chunk's payloads are chunk 0's terms again. -/
theorem pay_copies :
    (k0_pay19 (F := Ideal) = k0_pay7) ∧
    (k0_pay20 (F := Ideal) = k0_pay8) ∧
    (k0_pay21 (F := Ideal) = k0_pay9) ∧
    (k0_pay22 (F := Ideal) = k0_pay10) ∧
    (k0_pay23 (F := Ideal) = k0_pay11) ∧
    (k0_pay24 (F := Ideal) = k0_pay12) ∧
    (k0_pay25 (F := Ideal) = k0_pay13) ∧
    (k0_pay26 (F := Ideal) = k0_pay14) ∧
    (k0_pay27 (F := Ideal) = k0_pay15) ∧
    (k0_pay28 (F := Ideal) = k0_pay16) ∧
    (k0_pay29 (F := Ideal) = k0_pay17) ∧
    (k0_pay30 (F := Ideal) = k0_pay18) ∧
    (k0_pay31 (F := Ideal) = k0_pay7) ∧
    (k0_pay32 (F := Ideal) = k0_pay8) ∧
    (k0_pay33 (F := Ideal) = k0_pay9) ∧
    (k0_pay34 (F := Ideal) = k0_pay10) ∧
    (k0_pay35 (F := Ideal) = k0_pay11) ∧
    (k0_pay36 (F := Ideal) = k0_pay12) ∧
    (k0_pay37 (F := Ideal) = k0_pay13) ∧
    (k0_pay38 (F := Ideal) = k0_pay14) ∧
    (k0_pay39 (F := Ideal) = k0_pay15) ∧
    (k0_pay40 (F := Ideal) = k0_pay16) ∧
    (k0_pay41 (F := Ideal) = k0_pay17) ∧
    (k0_pay42 (F := Ideal) = k0_pay18) ∧
    (k0_pay43 (F := Ideal) = k0_pay7) ∧
    (k0_pay44 (F := Ideal) = k0_pay8) ∧
    (k0_pay45 (F := Ideal) = k0_pay9) ∧
    (k0_pay46 (F := Ideal) = k0_pay10) ∧
    (k0_pay47 (F := Ideal) = k0_pay11) ∧
    (k0_pay48 (F := Ideal) = k0_pay12) ∧
    (k0_pay49 (F := Ideal) = k0_pay13) ∧
    (k0_pay50 (F := Ideal) = k0_pay14) ∧
    (k0_pay51 (F := Ideal) = k0_pay15) ∧
    (k0_pay52 (F := Ideal) = k0_pay16) ∧
    (k0_pay53 (F := Ideal) = k0_pay17) ∧
    (k0_pay54 (F := Ideal) = k0_pay18) ∧
    (k0_pay55 (F := Ideal) = k0_pay7) ∧
    (k0_pay56 (F := Ideal) = k0_pay8) ∧
    (k0_pay57 (F := Ideal) = k0_pay9) ∧
    (k0_pay58 (F := Ideal) = k0_pay10) ∧
    (k0_pay59 (F := Ideal) = k0_pay11) ∧
    (k0_pay60 (F := Ideal) = k0_pay12) ∧
    (k0_pay61 (F := Ideal) = k0_pay13) ∧
    (k0_pay62 (F := Ideal) = k0_pay14) ∧
    (k0_pay63 (F := Ideal) = k0_pay15) ∧
    (k0_pay64 (F := Ideal) = k0_pay16) ∧
    (k0_pay65 (F := Ideal) = k0_pay17) ∧
    (k0_pay66 (F := Ideal) = k0_pay18) ∧
    (k0_pay67 (F := Ideal) = k0_pay7) ∧
    (k0_pay68 (F := Ideal) = k0_pay8) ∧
    (k0_pay69 (F := Ideal) = k0_pay9) ∧
    (k0_pay70 (F := Ideal) = k0_pay10) ∧
    (k0_pay71 (F := Ideal) = k0_pay11) ∧
    (k0_pay72 (F := Ideal) = k0_pay12) ∧
    (k0_pay73 (F := Ideal) = k0_pay13) ∧
    (k0_pay74 (F := Ideal) = k0_pay14) ∧
    (k0_pay75 (F := Ideal) = k0_pay15) ∧
    (k0_pay76 (F := Ideal) = k0_pay16) ∧
    (k0_pay77 (F := Ideal) = k0_pay17) ∧
    (k0_pay78 (F := Ideal) = k0_pay18) ∧
    (k0_pay79 (F := Ideal) = k0_pay7) ∧
    (k0_pay80 (F := Ideal) = k0_pay8) ∧
    (k0_pay81 (F := Ideal) = k0_pay9) ∧
    (k0_pay82 (F := Ideal) = k0_pay10) ∧
    (k0_pay83 (F := Ideal) = k0_pay11) ∧
    (k0_pay84 (F := Ideal) = k0_pay12) ∧
    (k0_pay85 (F := Ideal) = k0_pay13) ∧
    (k0_pay86 (F := Ideal) = k0_pay14) ∧
    (k0_pay87 (F := Ideal) = k0_pay15) ∧
    (k0_pay88 (F := Ideal) = k0_pay16) ∧
    (k0_pay89 (F := Ideal) = k0_pay17) ∧
    (k0_pay90 (F := Ideal) = k0_pay18) ∧
    (k0_pay91 (F := Ideal) = k0_pay7) ∧
    (k0_pay92 (F := Ideal) = k0_pay8) ∧
    (k0_pay93 (F := Ideal) = k0_pay9) ∧
    (k0_pay94 (F := Ideal) = k0_pay10) ∧
    (k0_pay95 (F := Ideal) = k0_pay11) ∧
    (k0_pay96 (F := Ideal) = k0_pay12) ∧
    (k0_pay97 (F := Ideal) = k0_pay13) ∧
    (k0_pay98 (F := Ideal) = k0_pay14) ∧
    (k0_pay99 (F := Ideal) = k0_pay15) ∧
    (k0_pay100 (F := Ideal) = k0_pay16) ∧
    (k0_pay101 (F := Ideal) = k0_pay17) ∧
    (k0_pay102 (F := Ideal) = k0_pay18) ∧
    (k0_pay160 (F := Ideal) = k0_pay159) ∧
    (k0_pay161 (F := Ideal) = k0_pay159) ∧
    (k0_pay2 (F := Ideal) = k0_pay1) ∧
    (k0_pay3 (F := Ideal) = k0_pay1) ∧
    (k0_pay4 (F := Ideal) = k0_pay1) ∧
    (k0_pay5 (F := Ideal) = k0_pay1) :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.KernelIdeal.Hand

end
-- ==== Proof.KI.PayRowsB.lean ====
import proofs.«407351_j22883585753581_3_alg».proof.Proof.KI.PayCopies
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen

theorem ofBits_negInf_f32 : Ideal.ofBits .f32 0xFF800000#32 = ⊥ := by simp [Ideal.ofBits, Ideal.ieee]

theorem ofBits_one_f32 : Ideal.ofBits .f32 0x3F800000#32 = 1 := by simp [Ideal.ofBits, Ideal.ieee, -EReal.coe_mul]; norm_num

theorem bcast_col_apply {α : Type} {b : ℕ} (v : S512x1.Idx → α) (h : S512x1.Broadcasts ⟨2, ![512, b]⟩) (r : Fin 512) (c : Fin b) :
    broadcastTo ⟨2, ![512, b]⟩ v h (ix2 r c) = v (ix2 r (0 : Fin 1)) := by
  refine broadcastTo_apply v h (ix2 r c) (ix2 r (0 : Fin 1)) fun ax => ?_
  match ax with
  | ⟨0, _⟩ => rfl
  | ⟨1, _⟩ => rfl

theorem pay103_eq : (k0_pay103 (F := Ideal)) = fun _ => (0 : EReal) := by
  funext i
  unfold k0_pay103
  rw [shapeCast_self]
  exact Ideal.ofBits_zero_f32

theorem pay105_eq : (k0_pay105 (F := Ideal)) = fun _ => (⊥ : EReal) := by
  funext i
  unfold k0_pay105
  rw [shapeCast_self]
  exact ofBits_negInf_f32

theorem pay106_eq : (k0_pay106 (F := Ideal)) = fun _ => (0 : EReal) := by
  funext i
  unfold k0_pay106
  rw [shapeCast_self]
  exact Ideal.ofBits_zero_f32

theorem pay107_eq : (k0_pay107 (F := Ideal)) = fun _ => (0 : EReal) := by
  funext i
  unfold k0_pay107
  rw [shapeCast_self]
  exact Ideal.ofBits_zero_f32

theorem pay104_apply (v3 : FVec Ideal S1x1x512x64 .bf16) (r : Fin 512) (d : Fin 64) :
    k0_pay104 (F := Ideal) v3 (ix2 r d) = v3 (ix4 (0 : Fin 1) (0 : Fin 1) r d) := by
  unfold k0_pay104
  exact shapeCast_apply v3 _ _ _ (by
    rw [Shape.rowMajor_val_four, Shape.rowMajor_val_two]
    show ((0 * 1 + 0) * 512 + r.val) * 64 + d.val = r.val * 64 + d.val
    omega)

theorem pay109_id (v : FVec Ideal S512x1 .f32) : k0_pay109 (F := Ideal) v = v := by
  unfold k0_pay109
  exact shapeCast_self _ _
theorem pay110_id (v : FVec Ideal S512x512 .f32) : k0_pay110 (F := Ideal) v = v := by
  unfold k0_pay110
  exact shapeCast_self _ _
theorem pay111_id (v : FVec Ideal S512x1 .f32) : k0_pay111 (F := Ideal) v = v := by
  unfold k0_pay111
  exact shapeCast_self _ _
theorem pay112_id (v : FVec Ideal S512x1 .f32) : k0_pay112 (F := Ideal) v = v := by
  unfold k0_pay112
  exact shapeCast_self _ _
theorem pay113_id (v : FVec Ideal S512x512 .f32) : k0_pay113 (F := Ideal) v = v := by
  unfold k0_pay113
  exact shapeCast_self _ _
theorem pay114_id (v : FVec Ideal S512x1 .f32) : k0_pay114 (F := Ideal) v = v := by
  unfold k0_pay114
  exact shapeCast_self _ _

theorem pay_ids :
    (∀ v, k0_pay109 (F := Ideal) v = v) ∧ (∀ v, k0_pay110 (F := Ideal) v = v) ∧ (∀ v, k0_pay111 (F := Ideal) v = v) ∧
    (∀ v, k0_pay112 (F := Ideal) v = v) ∧ (∀ v, k0_pay113 (F := Ideal) v = v) ∧ (∀ v, k0_pay114 (F := Ideal) v = v) :=
  ⟨pay109_id, pay110_id, pay111_id, pay112_id, pay113_id, pay114_id⟩

theorem pay157_apply (v68 : FVec Ideal S512x1 .f32) (r : Fin 512) :
    k0_pay157 (F := Ideal) v68 (ix2 r (0 : Fin 1)) = Ideal.div 1 (v68 (ix2 r (0 : Fin 1))) := by
  unfold k0_pay157
  show Ideal.div (Ideal.ofBits .f32 0x3F800000#32) (v68 (ix2 r (0 : Fin 1))) = _
  rw [ofBits_one_f32]

theorem pay158_apply (v68 : FVec Ideal S512x1 .f32) (v71 : FVec Ideal S512x64 .f32) (r : Fin 512) (d : Fin 64) :
    k0_pay158 (F := Ideal) v68 v71 (ix4 (0 : Fin 1) (0 : Fin 1) r d) = v71 (ix2 r d) * Ideal.div 1 (v68 (ix2 r (0 : Fin 1))) := by
  unfold k0_pay158
  refine (shapeCast_apply _ _ _ (ix2 r d) (by
    rw [Shape.rowMajor_val_four, Shape.rowMajor_val_two]
    show r.val * 64 + d.val = ((0 * 1 + 0) * 512 + r.val) * 64 + d.val
    omega)).trans ?_
  rw [mulf_apply, bcast_col_apply, pay157_apply]

theorem colSum_apply (x : FVec Ideal S512x512 .f32) (c : Fin 512) :
    shapeCast S1x512 (multiReduction (F := Ideal) .add [0] S512 x 0x00000000#32 reduces_S512x512_S512_2 (.inl rfl) rfl) shapeCasts_S512_S1x512 (ix2 (0 : Fin 1) c)
      = ∑ r : Fin 512, x (ix2 r c) := by
  refine (shapeCast_a_1a_apply _ _ (0 : Fin 1) c).trans ?_
  refine (Ideal.multiReduction_add_single x 0x00000000#32 reduces_S512x512_S512_2 (.inl rfl) rfl (ix1 c)).trans ?_
  refine Finset.sum_congr rfl (fun r _ => congrArg x (funext fun a => ?_))
  fin_cases a <;> rfl

theorem pay159_apply (v68 v77 v105 : FVec Ideal S512x1 .f32) (v109 : FVec Ideal S512x512 .bf16) (v115 : FVec Ideal S1x512 .f32) (c : Fin 512) :
    k0_pay159 (F := Ideal) v68 v77 v105 v109 v115 (ix2 (0 : Fin 1) c)
      = v115 (ix2 (0 : Fin 1) c) + ∑ r : Fin 512, v109 (ix2 r c) * (Ideal.exp (v105 (ix2 r (0 : Fin 1)) - v77 (ix2 r (0 : Fin 1))) * Ideal.div 1 (v68 (ix2 r (0 : Fin 1)))) := by
  unfold k0_pay159
  rw [shapeCast_self, addf_apply, colSum_apply]
  congr 1
  refine Finset.sum_congr rfl (fun r _ => ?_)
  rw [mulf_apply, extf_apply, bcast_col_apply, mulf_apply, pay157_apply]
  rfl

theorem pay1_apply (v70 v77 v105 : FVec Ideal S512x1 .f32) (v109 : FVec Ideal S512x512 .bf16) (v115 : FVec Ideal S1x512 .f32) (c : Fin 512) :
    k0_pay1 (F := Ideal) v70 v77 v105 v109 v115 (ix2 (0 : Fin 1) c)
      = v115 (ix2 (0 : Fin 1) c) + ∑ r : Fin 512, v109 (ix2 r c) * (Ideal.exp (v105 (ix2 r (0 : Fin 1)) - v77 (ix2 r (0 : Fin 1))) * v70 (ix2 r (0 : Fin 1))) := by
  unfold k0_pay1
  rw [shapeCast_self, addf_apply, colSum_apply]
  congr 1
  refine Finset.sum_congr rfl (fun r _ => ?_)
  rw [mulf_apply, extf_apply, bcast_col_apply, mulf_apply]
  rfl

theorem pay6_apply (v105 : FVec Ideal S1x4096 .f32) (t : Fin 4096) :
    k0_pay6 (F := Ideal) v105 (ix4 (0 : Fin 1) (0 : Fin 1) (0 : Fin 1) t) = v105 (ix2 (0 : Fin 1) t) := by
  unfold k0_pay6
  exact shapeCast_apply v105 _ _ _ (by
    rw [Shape.rowMajor_val_two, Shape.rowMajor_val_four]
    show 0 * 4096 + t.val = ((0 * 1 + 0) * 1 + 0) * 4096 + t.val
    omega)

end Cert.KernelIdeal.Hand

end
-- ==== Proof.KI.ColSum.lean ====
import proofs.«407351_j22883585753581_3_alg».proof.Proof.KI.PayRowsB
import proofs.«407351_j22883585753581_3_alg».proof.Proof.Spec

noncomputable section

namespace Cert.KernelIdeal.Hand

open Idealize.ShloMosaic Idealize.ShloMosaic.ValueIdx
open Cert.KernelIdeal Cert.KernelIdeal.Gen

theorem colSum_eq_tileColSum (S : Attn.Mat 4096 4096) (V : Attn.Mat 4096 64) (qi j : Fin 8)
    (w v77 v105 : FVec Ideal S512x1 .f32) (v109 : FVec Ideal S512x512 .bf16)
    (hw : ∀ r : Fin 512, w (ix2 r (0 : Fin 1)) = Ideal.div 1 (Attn.stFinal S V qi r).l)
    (hm : ∀ r : Fin 512, v77 (ix2 r (0 : Fin 1)) = (Attn.stFinal S V qi r).m)
    (hj : ∀ r : Fin 512, v105 (ix2 r (0 : Fin 1)) = (Attn.stAfter S V qi r (j.val + 1)).m)
    (hp : ∀ r c : Fin 512, v109 (ix2 r c) = Attn.pStored S V qi r j c) (c : Fin 512) :
    (∑ r : Fin 512, v109 (ix2 r c) * (Ideal.exp (v105 (ix2 r (0 : Fin 1)) - v77 (ix2 r (0 : Fin 1))) * w (ix2 r (0 : Fin 1))))
      = Attn.tileColSum S V qi j c := by
  unfold Attn.tileColSum
  refine Finset.sum_congr rfl fun r _ => ?_
  rw [hp r c, hj r, hm r, hw r]
  rfl

theorem colsumA_value (S : Attn.Mat 4096 4096) (V : Attn.Mat 4096 64) (qi j : Fin 8)
    (v68 v77 v105 : FVec Ideal S512x1 .f32) (v109 : FVec Ideal S512x512 .bf16) (v115 : FVec Ideal S1x512 .f32)
    (hl : ∀ r : Fin 512, v68 (ix2 r (0 : Fin 1)) = (Attn.stFinal S V qi r).l)
    (hm : ∀ r : Fin 512, v77 (ix2 r (0 : Fin 1)) = (Attn.stFinal S V qi r).m)
    (hj : ∀ r : Fin 512, v105 (ix2 r (0 : Fin 1)) = (Attn.stAfter S V qi r (j.val + 1)).m)
    (hp : ∀ r c : Fin 512, v109 (ix2 r c) = Attn.pStored S V qi r j c) (c : Fin 512) :
    k0_pay159 (F := Ideal) v68 v77 v105 v109 v115 (ix2 (0 : Fin 1) c)
      = v115 (ix2 (0 : Fin 1) c) + Attn.tileColSum S V qi j c := by
  refine (pay159_apply v68 v77 v105 v109 v115 c).trans ?_
  refine congrArg (fun z => v115 (ix2 (0 : Fin 1) c) + z) ?_
  refine (Finset.sum_congr rfl fun r _ => ?_).trans
    (colSum_eq_tileColSum S V qi j (fun i => Ideal.div 1 (v68 i)) v77 v105 v109 (fun r => by rw [hl r]) hm hj hp c)
  rfl

theorem colsumB_value (S : Attn.Mat 4096 4096) (V : Attn.Mat 4096 64) (qi j : Fin 8)
    (w v77 v105 : FVec Ideal S512x1 .f32) (v109 : FVec Ideal S512x512 .bf16) (v115 : FVec Ideal S1x512 .f32)
    (hw : ∀ r : Fin 512, w (ix2 r (0 : Fin 1)) = Ideal.div 1 (Attn.stFinal S V qi r).l)
    (hm : ∀ r : Fin 512, v77 (ix2 r (0 : Fin 1)) = (Attn.stFinal S V qi r).m)
    (hj : ∀ r : Fin 512, v105 (ix2 r (0 : Fin 1)) = (Attn.stAfter S V qi r (j.val + 1)).m)
    (hp : ∀ r c : Fin 512, v109 (ix2 r c) = Attn.pStored S V qi r j c) (c : Fin 512) :
    k0_pay1 (F := Ideal) w v77 v105 v109 v115 (ix2 (0 : Fin 1) c)
      = v115 (ix2 (0 : Fin 1) c) + Attn.tileColSum S V qi j c := by
  refine (pay1_apply w v77 v105 v109 v115 c).trans ?_
  exact congrArg (fun z => v115 (ix2 (0 : Fin 1) c) + z) (colSum_eq_tileColSum S V qi j w v77 v105 v109 hw hm hj hp c)

theorem recip_value (S : Attn.Mat 4096 4096) (V : Attn.Mat 4096 64) (qi : Fin 8) (v68 : FVec Ideal S512x1 .f32)
    (hl : ∀ r : Fin 512, v68 (ix2 r (0 : Fin 1)) = (Attn.stFinal S V qi r).l) (r : Fin 512) :
    k0_pay157 (F := Ideal) v68 (ix2 r (0 : Fin 1)) = Ideal.div 1 (Attn.stFinal S V qi r).l := by
  rw [pay157_apply, hl r]

end Cert.KernelIdeal.Hand

end
-- ==== Proof.KI.PassTwo.lean ====
import proofs.«407351_j22883585753581_3_alg».proof.Proof.KI.Steps
import proofs.«407351_j22883585753581_3_alg».proof.Proof.KI.ColSum

noncomputable section

namespace Cert.KernelIdeal.Hand

open Cert.KernelIdeal Cert.KernelIdeal.Gen
open Idealize.ShloMosaic Idealize.ShloMosaic.ValueIdx Idealize.SL.Sem

section PassTwo

variable (x2 : Attn.BQ.Idx → EReal) (x3 : Attn.BK.Idx → EReal) (x4 : Attn.BV.Idx → EReal)
variable (q : FVec Ideal S512x64 .bf16) (Kf : Fin 8 → FVec Ideal S1x1x64x512 .bf16) (Wf : Fin 8 → FVec Ideal S1x1x512x64 .bf16)
variable (Xf : ℕ → FVec Ideal S1x512 .f32)

def histOf (qi : Fin 8) (k : ℕ) : FVec Ideal S512x1 .f32 :=
  if k < qi.val then (bufsAfter q Kf Wf (k + 1)).m else (bufsFinal q Kf Wf qi).m

def probOf (qi : Fin 8) (k : ℕ) : FVec Ideal S512x512 .f32 :=
  if h : k < qi.val then k0_pay10 (F := Ideal) q (Kf ⟨k, by omega⟩) (bufsAfter q Kf Wf k).m
  else k0_pay16 (F := Ideal) q k0_pay108 (Kf qi) (bufsAfter q Kf Wf qi.val).m

def passW (qi : Fin 8) (k : ℕ) : S1x512.Idx → EReal :=
  if k ≤ 2 then
    k0_pay159 (F := Ideal) (bufsFinal q Kf Wf qi).l (bufsFinal q Kf Wf qi).m (histOf q Kf Wf qi k) (probOf q Kf Wf qi k) (Xf k)
  else
    k0_pay1 (F := Ideal) (k0_pay157 (F := Ideal) (bufsFinal q Kf Wf qi).l) (bufsFinal q Kf Wf qi).m (histOf q Kf Wf qi k)
      (probOf q Kf Wf qi k) (Xf k)

variable (hq : ∀ (r : Fin 512) (d : Fin 64), q (ix2 r d) = x2 (ix4 (0 : Fin 1) (0 : Fin 1) r d))
variable (hK : ∀ (j : Fin 8) (d : Fin 64) (c : Fin 512), Kf j (ix4 (0 : Fin 1) (0 : Fin 1) d c) = x3 (ix4 (0 : Fin 1) (0 : Fin 1) d (Attn.gk j c)))
variable (hW : ∀ (j : Fin 8) (c : Fin 512) (d : Fin 64), Wf j (ix4 (0 : Fin 1) (0 : Fin 1) c d) = x4 (ix4 (0 : Fin 1) (0 : Fin 1) (Attn.gk j c) d))

include hq hK hW

theorem histOf_value (qi j : Fin 8) (hj : j.val ≤ qi.val) (r : Fin 512) :
    histOf q Kf Wf qi j.val (ix2 r (0 : Fin 1))
      = (Attn.stAfter (Attn.blkS x2 x3) (Attn.blkV x4) qi r (j.val + 1)).m := by
  unfold histOf
  by_cases h : j.val < qi.val
  · rw [if_pos h]
    exact m_bufsAfter x2 x3 x4 q Kf Wf hq hK hW qi (j.val + 1) (by omega) r
  · rw [if_neg h]
    have e : j.val = qi.val := by omega
    rw [e]
    exact m_bufsFinal x2 x3 x4 q Kf Wf hq hK hW qi r

theorem probOf_value (qi j : Fin 8) (hj : j.val ≤ qi.val) (r c : Fin 512) :
    probOf q Kf Wf qi j.val (ix2 r c) = Attn.pStored (Attn.blkS x2 x3) (Attn.blkV x4) qi r j c := by
  unfold probOf
  by_cases h : j.val < qi.val
  · rw [dif_pos h]
    exact prob_bufsU x2 x3 x4 q Kf Wf hq hK hW qi j h r c
  · rw [dif_neg h]
    have e : j = qi := Fin.ext (by omega)
    rw [e]
    exact prob_bufsM x2 x3 x4 q Kf Wf hq hK hW qi r c

theorem passW_value (qi j : Fin 8) (hj : j.val ≤ qi.val) (c : Fin 512) :
    passW q Kf Wf Xf qi j.val (ix2 (0 : Fin 1) c)
      = Xf j.val (ix2 (0 : Fin 1) c) + Attn.tileColSum (Attn.blkS x2 x3) (Attn.blkV x4) qi j c := by
  have hl := l_bufsFinal x2 x3 x4 q Kf Wf hq hK hW qi
  have hm := m_bufsFinal x2 x3 x4 q Kf Wf hq hK hW qi
  have hh := histOf_value x2 x3 x4 q Kf Wf hq hK hW qi j hj
  have hp := probOf_value x2 x3 x4 q Kf Wf hq hK hW qi j hj
  unfold passW
  by_cases h2 : j.val ≤ 2
  · rw [if_pos h2]
    exact colsumA_value _ _ qi j _ _ _ _ (Xf j.val) hl hm hh hp c
  · rw [if_neg h2]
    exact colsumB_value _ _ qi j _ _ _ _ (Xf j.val)
      (recip_value _ _ qi _ hl) hm hh hp c

end PassTwo

end Cert.KernelIdeal.Hand

end
-- ==== Proof.KI.AccRead.lean ====
import proofs.«407351_j22883585753581_3_alg».proof.KernelIdeal
import proofs.«407351_j22883585753581_3_alg».proof.Proof.Spec
import Idealize.ShloMosaic.Lib.Writes
import Idealize.ShloMosaic.Lib.ValueIdx

noncomputable section

namespace Cert.KernelIdeal.Hand

open Idealize.ShloMosaic Idealize.ShloMosaic.ValueIdx Idealize.SL.Sem
open Cert.KernelIdeal

variable {Val : EltTy → Type}

abbrev accRect (k : ℕ) : Rect S8x4096 :=
  Rect.unit ![0, 512 * (k % 8)] ![1, 512]
    (Rect.inb₂ (d := ![8, 4096]) (by show 0 + 1 ≤ 8; omega) (by show 512 * (k % 8) + 512 ≤ 4096; omega))

def accPieces (W : ℕ → S1x512.Idx → Val .f32) : ℕ → List (View.Piece Val S8x4096 .f32)
  | 0 => []
  | k + 1 => (⟨accRect k, W k⟩ : View.Piece Val S8x4096 .f32) :: accPieces W k

theorem mem_accRect (k : ℕ) (hk : k < 8) (b : Fin 8) (t : Fin 4096) :
    ix2 b t ∈ (accRect k).set ↔ b.val = 0 ∧ (Attn.tileOf t).val = k := by
  rw [Rect.mem_set_unit, Fin.forall_fin_two]
  show ((0 ≤ b.val ∧ b.val < 0 + 1) ∧ (512 * (k % 8) ≤ t.val ∧ t.val < 512 * (k % 8) + 512)) ↔ b.val = 0 ∧ t.val / 512 = k
  have := t.isLt
  omega

theorem accRect_emb (k : ℕ) (hk : k < 8) (t : Fin 4096) (ht : (Attn.tileOf t).val = k) :
    (accRect k).emb (ix2 (0 : Fin 1) (Attn.rowOf t)) = ix2 (0 : Fin 8) t := by
  funext a
  refine Fin.ext ?_
  rw [Rect.emb_apply]
  match a with
  | ⟨0, _⟩ => rfl
  | ⟨1, _⟩ =>
    show 512 * (k % 8) + 1 * (t.val % 512) = t.val
    have : t.val / 512 = k := ht
    omega

theorem read_accPieces {sig : RefSig} {κ : Kind} {sp : Space} (v : View sig κ sp S8x4096 .f32) (f : v.ty.Contents Val)
    (W : ℕ → S1x512.Idx → Val .f32) (k : ℕ) (hk : k ≤ 8) (t : Fin 4096) :
    v.read Val (v.writes Val f (accPieces W k)) (ix2 (0 : Fin 8) t)
      = if (Attn.tileOf t).val < k then W (Attn.tileOf t).val (ix2 (0 : Fin 1) (Attn.rowOf t))
        else v.read Val f (ix2 (0 : Fin 8) t) := by
  induction k with
  | zero => simp [accPieces]
  | succ k ih =>
    have hk' : k < 8 := by omega
    by_cases ht : (Attn.tileOf t).val = k
    · rw [if_pos (by omega), ht]
      show v.read Val (v.writes Val f (⟨accRect k, W k⟩ :: accPieces W k)) (ix2 (0 : Fin 8) t) = _
      rw [← accRect_emb k hk' t ht]
      exact View.read_writes_cons_emb v f (accRect k) (W k) (accPieces W k) _
    · show v.read Val (v.writes Val f (⟨accRect k, W k⟩ :: accPieces W k)) (ix2 (0 : Fin 8) t) = _
      rw [View.writes_cons, View.read_slice_write_of_not_mem (accRect k) _ _ _
        (by rw [Rect.map_emb_univ, mem_accRect k hk']; exact fun h => ht h.2), ih (by omega)]
      by_cases hlt : (Attn.tileOf t).val < k
      · rw [if_pos hlt, if_pos (by omega)]
      · rw [if_neg hlt, if_neg (by omega)]

theorem acc_after_pass {sig : RefSig} {κ : Kind} {sp : Space} (v : View sig κ sp S8x4096 .f32)
    (f : v.ty.Contents (Elt Ideal)) (X : S8x4096.Idx → EReal) (hX : v.read (Elt Ideal) f = X)
    (W : ℕ → S1x512.Idx → EReal) (TC : Fin 8 → Fin 512 → EReal) (n : ℕ) (hn : n < 8)
    (hW : ∀ j : Fin 8, j.val ≤ n → ∀ c : Fin 512,
      W j.val (ix2 (0 : Fin 1) c) = X (ix2 (0 : Fin 8) (Attn.gk j c)) + TC j c) (t : Fin 4096) :
    v.read (Elt Ideal) (v.writes (Elt Ideal) f (accPieces (Val := Elt Ideal) W (n + 1))) (ix2 (0 : Fin 8) t)
      = if (Attn.tileOf t).val ≤ n then X (ix2 (0 : Fin 8) t) + TC (Attn.tileOf t) (Attn.rowOf t)
        else X (ix2 (0 : Fin 8) t) := by
  refine (read_accPieces v f W (n + 1) (by omega) t).trans ?_
  rw [hX]
  by_cases h : (Attn.tileOf t).val ≤ n
  · rw [if_pos (by omega), if_pos h, hW (Attn.tileOf t) h (Attn.rowOf t), Attn.gk_tile_row]
  · rw [if_neg (by omega), if_neg h]

end Cert.KernelIdeal.Hand

end
-- ==== Proof.KI.Loads.lean ====
import proofs.«407351_j22883585753581_3_alg».proof.KernelIdeal
import proofs.«407351_j22883585753581_3_alg».proof.Proof.Spec
import Idealize.ShloMosaic.Lib.Pipeline.FrameBody
import Idealize.ShloMosaic.Lib.ValueIdx

noncomputable section

namespace Cert.KernelIdeal.Hand

open Cert.KernelIdeal
open Idealize.ShloMosaic Idealize.ShloMosaic.ValueIdx

variable {Val : EltTy → Type} {e : EltTy}

theorem ldK_apply (x3 : S1x1x64x4096.Idx → Val e) (o : Nat) (inb : ∀ a, (![0, 0, 0, o] : Fin 4 → Nat) a + S1x1x64x512.size a ≤ S1x1x64x4096.size a)
    (j : Fin 8) (ho : o = 512 * j.val) (d : Fin 64) (c : Fin 512) :
    View.ld x3 (Rect.unit ![0, 0, 0, o] S1x1x64x512.size inb) (ix4 (0 : Fin 1) (0 : Fin 1) d c)
      = x3 (ix4 (0 : Fin 1) (0 : Fin 1) d (Attn.gk j c)) := by
  show x3 _ = x3 _
  refine congrArg x3 (funext fun a => Fin.ext ?_)
  match a with
  | ⟨0, _⟩ => rfl
  | ⟨1, _⟩ => rfl
  | ⟨2, _⟩ => show 0 + 1 * d.val = d.val; omega
  | ⟨3, _⟩ => show o + 1 * c.val = 512 * j.val + c.val; omega

theorem ldV_apply (x4 : S1x1x4096x64.Idx → Val e) (o : Nat) (inb : ∀ a, (![0, 0, o, 0] : Fin 4 → Nat) a + S1x1x512x64.size a ≤ S1x1x4096x64.size a)
    (j : Fin 8) (ho : o = 512 * j.val) (c : Fin 512) (d : Fin 64) :
    View.ld x4 (Rect.unit ![0, 0, o, 0] S1x1x512x64.size inb) (ix4 (0 : Fin 1) (0 : Fin 1) c d)
      = x4 (ix4 (0 : Fin 1) (0 : Fin 1) (Attn.gk j c) d) := by
  show x4 _ = x4 _
  refine congrArg x4 (funext fun a => Fin.ext ?_)
  match a with
  | ⟨0, _⟩ => rfl
  | ⟨1, _⟩ => rfl
  | ⟨2, _⟩ => show o + 1 * c.val = 512 * j.val + c.val; omega
  | ⟨3, _⟩ => show 0 + 1 * d.val = d.val; omega

theorem ldX_apply (xs : S8x4096.Idx → Val e) (o : Nat) (inb : ∀ a, (![0, o] : Fin 2 → Nat) a + S1x512.size a ≤ S8x4096.size a)
    (j : Fin 8) (ho : o = 512 * j.val) (c : Fin 512) :
    View.ld xs (Rect.unit ![0, o] S1x512.size inb) (ix2 (0 : Fin 1) c) = xs (ix2 (0 : Fin 8) (Attn.gk j c)) := by
  show xs _ = xs _
  refine congrArg xs (funext fun a => Fin.ext ?_)
  match a with
  | ⟨0, _⟩ => rfl
  | ⟨1, _⟩ => show o + 1 * c.val = 512 * j.val + c.val; omega

theorem ldXrow_apply (xs : S8x4096.Idx → Val e) (inb : ∀ a, (![0, 0] : Fin 2 → Nat) a + S1x4096.size a ≤ S8x4096.size a) (t : Fin 4096) :
    View.ld xs (Rect.unit ![0, 0] S1x4096.size inb) (ix2 (0 : Fin 1) t) = xs (ix2 (0 : Fin 8) t) := by
  show xs _ = xs _
  refine congrArg xs (funext fun a => Fin.ext ?_)
  match a with
  | ⟨0, _⟩ => rfl
  | ⟨1, _⟩ => show 0 + 1 * t.val = t.val; omega

variable {F : FTy → Type}

theorem inbK (j : Fin 8) : ∀ a, (![0, 0, 0, 512 * j.val] : Fin 4 → Nat) a + S1x1x64x512.size a ≤ S1x1x64x4096.size a := by
  have := j.isLt
  intro a
  match a with
  | ⟨0, _⟩ => show 0 + 1 ≤ 1; omega
  | ⟨1, _⟩ => show 0 + 1 ≤ 1; omega
  | ⟨2, _⟩ => show 0 + 64 ≤ 64; omega
  | ⟨3, _⟩ => show 512 * j.val + 512 ≤ 4096; omega

theorem inbV (j : Fin 8) : ∀ a, (![0, 0, 512 * j.val, 0] : Fin 4 → Nat) a + S1x1x512x64.size a ≤ S1x1x4096x64.size a := by
  have := j.isLt
  intro a
  match a with
  | ⟨0, _⟩ => show 0 + 1 ≤ 1; omega
  | ⟨1, _⟩ => show 0 + 1 ≤ 1; omega
  | ⟨2, _⟩ => show 512 * j.val + 512 ≤ 4096; omega
  | ⟨3, _⟩ => show 0 + 64 ≤ 64; omega

theorem inbX (j : Fin 8) : ∀ a, (![0, 512 * j.val] : Fin 2 → Nat) a + S1x512.size a ≤ S8x4096.size a := by
  have := j.isLt
  intro a
  match a with
  | ⟨0, _⟩ => show 0 + 1 ≤ 8; omega
  | ⟨1, _⟩ => show 512 * j.val + 512 ≤ 4096; omega

def Kc (x3 : Vec F S1x1x64x4096 .bf16) (j : Fin 8) : Vec F S1x1x64x512 .bf16 :=
  View.ld x3 (Rect.unit ![0, 0, 0, 512 * j.val] S1x1x64x512.size (inbK j))

def Vc (x4 : Vec F S1x1x4096x64 .bf16) (j : Fin 8) : Vec F S1x1x512x64 .bf16 :=
  View.ld x4 (Rect.unit ![0, 0, 512 * j.val, 0] S1x1x512x64.size (inbV j))

def Xc (xs : Vec F S8x4096 .f32) (j : Fin 8) : Vec F S1x512 .f32 :=
  View.ld xs (Rect.unit ![0, 512 * j.val] S1x512.size (inbX j))

theorem Kc_apply (x3 : Vec F S1x1x64x4096 .bf16) (j : Fin 8) (d : Fin 64) (c : Fin 512) :
    Kc x3 j (ix4 (0 : Fin 1) (0 : Fin 1) d c) = x3 (ix4 (0 : Fin 1) (0 : Fin 1) d (Attn.gk j c)) :=
  ldK_apply x3 (512 * j.val) (inbK j) j rfl d c

theorem Vc_apply (x4 : Vec F S1x1x4096x64 .bf16) (j : Fin 8) (c : Fin 512) (d : Fin 64) :
    Vc x4 j (ix4 (0 : Fin 1) (0 : Fin 1) c d) = x4 (ix4 (0 : Fin 1) (0 : Fin 1) (Attn.gk j c) d) :=
  ldV_apply x4 (512 * j.val) (inbV j) j rfl c d

theorem Xc_apply (xs : Vec F S8x4096 .f32) (j : Fin 8) (c : Fin 512) :
    Xc xs j (ix2 (0 : Fin 1) c) = xs (ix2 (0 : Fin 8) (Attn.gk j c)) :=
  ldX_apply xs (512 * j.val) (inbX j) j rfl c

end Cert.KernelIdeal.Hand

end
-- ==== Proof.KI.PayIdCopies.lean ====
import proofs.«407351_j22883585753581_3_alg».proof.Proof.KI.PayRowsB

noncomputable section

namespace Cert.KernelIdeal.Hand

open Idealize.ShloMosaic
open Cert.KernelIdeal Cert.KernelIdeal.Gen

/-- The casts in front of every chunk's stores are chunk 0's terms again. -/
theorem pay_id_copies :
    (k0_pay115 (F := Ideal) = k0_pay109) ∧
    (k0_pay116 (F := Ideal) = k0_pay110) ∧
    (k0_pay117 (F := Ideal) = k0_pay111) ∧
    (k0_pay118 (F := Ideal) = k0_pay112) ∧
    (k0_pay119 (F := Ideal) = k0_pay113) ∧
    (k0_pay120 (F := Ideal) = k0_pay114) ∧
    (k0_pay121 (F := Ideal) = k0_pay109) ∧
    (k0_pay122 (F := Ideal) = k0_pay110) ∧
    (k0_pay123 (F := Ideal) = k0_pay111) ∧
    (k0_pay124 (F := Ideal) = k0_pay112) ∧
    (k0_pay125 (F := Ideal) = k0_pay113) ∧
    (k0_pay126 (F := Ideal) = k0_pay114) ∧
    (k0_pay127 (F := Ideal) = k0_pay109) ∧
    (k0_pay128 (F := Ideal) = k0_pay110) ∧
    (k0_pay129 (F := Ideal) = k0_pay111) ∧
    (k0_pay130 (F := Ideal) = k0_pay112) ∧
    (k0_pay131 (F := Ideal) = k0_pay113) ∧
    (k0_pay132 (F := Ideal) = k0_pay114) ∧
    (k0_pay133 (F := Ideal) = k0_pay109) ∧
    (k0_pay134 (F := Ideal) = k0_pay110) ∧
    (k0_pay135 (F := Ideal) = k0_pay111) ∧
    (k0_pay136 (F := Ideal) = k0_pay112) ∧
    (k0_pay137 (F := Ideal) = k0_pay113) ∧
    (k0_pay138 (F := Ideal) = k0_pay114) ∧
    (k0_pay139 (F := Ideal) = k0_pay109) ∧
    (k0_pay140 (F := Ideal) = k0_pay110) ∧
    (k0_pay141 (F := Ideal) = k0_pay111) ∧
    (k0_pay142 (F := Ideal) = k0_pay112) ∧
    (k0_pay143 (F := Ideal) = k0_pay113) ∧
    (k0_pay144 (F := Ideal) = k0_pay114) ∧
    (k0_pay145 (F := Ideal) = k0_pay109) ∧
    (k0_pay146 (F := Ideal) = k0_pay110) ∧
    (k0_pay147 (F := Ideal) = k0_pay111) ∧
    (k0_pay148 (F := Ideal) = k0_pay112) ∧
    (k0_pay149 (F := Ideal) = k0_pay113) ∧
    (k0_pay150 (F := Ideal) = k0_pay114) ∧
    (k0_pay151 (F := Ideal) = k0_pay109) ∧
    (k0_pay152 (F := Ideal) = k0_pay110) ∧
    (k0_pay153 (F := Ideal) = k0_pay111) ∧
    (k0_pay154 (F := Ideal) = k0_pay112) ∧
    (k0_pay155 (F := Ideal) = k0_pay113) ∧
    (k0_pay156 (F := Ideal) = k0_pay114) :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.KernelIdeal.Hand

end
-- ==== Proof.KI.AccCore.lean ====
import proofs.«407351_j22883585753581_3_alg».proof.Proof.KI.PassTwo
import proofs.«407351_j22883585753581_3_alg».proof.Proof.KI.AccRead
import proofs.«407351_j22883585753581_3_alg».proof.Proof.KI.Loads
import proofs.«407351_j22883585753581_3_alg».proof.Proof.KI.PayIdCopies
import Idealize.ShloMosaic.Lib.Pipeline.Frame

noncomputable section

namespace Cert.KernelIdeal.Hand

open Cert.KernelIdeal Cert.KernelIdeal.Gen
open Idealize.ShloMosaic Idealize.ShloMosaic.ValueIdx Idealize.SL.Sem

def XfOf (xs12 : Vec Ideal S8x4096 .f32) (k : ℕ) : FVec Ideal S1x512 .f32 :=
  if h : k < 8 then Xc xs12 ⟨k, h⟩ else fun _ => (0 : EReal)

theorem XfOf_apply (xs12 : Vec Ideal S8x4096 .f32) (j : Fin 8) (c : Fin 512) :
    XfOf xs12 j.val (ix2 (0 : Fin 1) c) = xs12 (ix2 (0 : Fin 8) (Attn.gk j c)) := by
  unfold XfOf
  rw [dif_pos j.isLt]
  exact Xc_apply xs12 j c

abbrev tileW (x2 : Vec Ideal S1x1x512x64 .bf16) (x3 : Vec Ideal S1x1x64x4096 .bf16) (x4 : Vec Ideal S1x1x4096x64 .bf16)
    (Xf : ℕ → FVec Ideal S1x512 .f32) (n : Fin 8) : ℕ → S1x512.Idx → EReal :=
  passW (k0_pay104 (F := Ideal) x2) (Kc x3) (Vc x4) Xf n

theorem tileW_value (x2 : Vec Ideal S1x1x512x64 .bf16) (x3 : Vec Ideal S1x1x64x4096 .bf16) (x4 : Vec Ideal S1x1x4096x64 .bf16)
    (Xf : ℕ → FVec Ideal S1x512 .f32) (n j : Fin 8) (hj : j.val ≤ n.val) (c : Fin 512) :
    tileW x2 x3 x4 Xf n j.val (ix2 (0 : Fin 1) c)
      = Xf j.val (ix2 (0 : Fin 1) c) + Attn.tileColSum (Attn.blkS x2 x3) (Attn.blkV x4) n j c :=
  passW_value x2 x3 x4 (k0_pay104 (F := Ideal) x2) (Kc x3) (Vc x4) Xf (pay104_apply x2) (Kc_apply x3) (Vc_apply x4) n j hj c

theorem acc_of_pieces {sig' : RefSig} (arg12 : Memref sig' .tc .vmem S8x4096 .f32) (harg12 : arg12.IsWhole)
    (x2 : Vec Ideal S1x1x512x64 .bf16) (x3 : Vec Ideal S1x1x64x4096 .bf16) (x4 : Vec Ideal S1x1x4096x64 .bf16)
    (xs12 : Vec Ideal S8x4096 .f32) (n : Fin 8) (L : List (View.Piece (Elt Ideal) S8x4096 .f32))
    (hL : L = accPieces (Val := Elt Ideal) (tileW x2 x3 x4 (XfOf xs12) n) (n.val + 1)) (t : Fin 4096) :
    arg12.view.read (Elt Ideal) (arg12.view.writes (Elt Ideal) (harg12.unread xs12) L) (ix2 (0 : Fin 8) t)
      = if (Attn.tileOf t).val ≤ n.val
          then xs12 (ix2 (0 : Fin 8) t) + Attn.tileColSum (Attn.blkS x2 x3) (Attn.blkV x4) n (Attn.tileOf t) (Attn.rowOf t)
          else xs12 (ix2 (0 : Fin 8) t) := by
  subst hL
  exact acc_after_pass arg12.view (harg12.unread xs12) xs12 (harg12.read_unread xs12) _
    (Attn.tileColSum (Attn.blkS x2 x3) (Attn.blkV x4) n) n.val n.isLt
    (fun j hj c => (tileW_value x2 x3 x4 (XfOf xs12) n j hj c).trans (by rw [XfOf_apply])) t

theorem acc_of_pieces_first {sig' : RefSig} {κ : Kind} {sp : Space} (v : View sig' κ sp S8x4096 .f32) (f : v.ty.Contents (Elt Ideal))
    (x2 : Vec Ideal S1x1x512x64 .bf16) (x3 : Vec Ideal S1x1x64x4096 .bf16) (x4 : Vec Ideal S1x1x4096x64 .bf16)
    (X0 : FVec Ideal S1x512 .f32) (hX0 : ∀ c : Fin 512, X0 (ix2 (0 : Fin 1) c) = 0)
    (Z : List (View.Piece (Elt Ideal) S8x4096 .f32)) (hZ : v.read (Elt Ideal) (v.writes (Elt Ideal) f Z) = fun _ => (0 : EReal))
    (L : List (View.Piece (Elt Ideal) S8x4096 .f32))
    (hL : L = accPieces (Val := Elt Ideal) (tileW x2 x3 x4 (fun _ => X0) ⟨0, by decide⟩) 1 ++ Z) (t : Fin 4096) :
    v.read (Elt Ideal) (v.writes (Elt Ideal) f L) (ix2 (0 : Fin 8) t)
      = if (Attn.tileOf t).val ≤ 0
          then 0 + Attn.tileColSum (Attn.blkS x2 x3) (Attn.blkV x4) ⟨0, by decide⟩ (Attn.tileOf t) (Attn.rowOf t)
          else 0 := by
  subst hL
  rw [View.writes_append]
  exact acc_after_pass v (v.writes (Elt Ideal) f Z) (fun _ => (0 : EReal)) hZ _
    (Attn.tileColSum (Attn.blkS x2 x3) (Attn.blkV x4) ⟨0, by decide⟩) 0 (by decide)
    (fun j hj c => (tileW_value x2 x3 x4 (fun _ => X0) ⟨0, by decide⟩ j hj c).trans (by rw [hX0])) t

end Cert.KernelIdeal.Hand

end
-- ==== Proof.KI.PiecesMid.lean ====
import proofs.«407351_j22883585753581_3_alg».proof.Proof.KI.RunMid
import proofs.«407351_j22883585753581_3_alg».proof.Proof.KI.AccCore
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem

variable (c : Dev nD) (i : grid0.Coords) (B : Operands)
  (x2 : Vec Ideal S1x1x512x64 .bf16) (x3 : Vec Ideal S1x1x64x4096 .bf16) (x4 : Vec Ideal S1x1x4096x64 .bf16) (xs12 : Vec Ideal S8x4096 .f32)

set_option maxHeartbeats 2400000 in
/-- Every read-back inside the body reads the last store through the same rectangle, so the stores have closed payloads. -/
theorem pieces_q : (q : ℕ) → (h1 : 1 ≤ q) → (h6 : q ≤ 6) → (hq : (i 1).val = q) →
    (kernelRunQ (F := Ideal) c i B x2 x3 x4 xs12 q h1 h6 hq).1
      = [⟨Rect.unit ![0, 0, 0, 0] S1x1x512x64.size inb_S1x1x512x64_S1x1x512x64_0_0_0_0,
          k0_pay158 (F := Ideal) (bufsFinal (k0_pay104 (F := Ideal) x2) (Kc x3) (Vc x4) ⟨q, by omega⟩).l
            (bufsFinal (k0_pay104 (F := Ideal) x2) (Kc x3) (Vc x4) ⟨q, by omega⟩).acc⟩]
    ∧ (kernelRunQ (F := Ideal) c i B x2 x3 x4 xs12 q h1 h6 hq).2.2.1
      = accPieces (Val := Elt Ideal) (tileW x2 x3 x4 (XfOf xs12) ⟨q, by omega⟩) ((⟨q, by omega⟩ : Fin 8).val + 1)
  | 1, _, _, _ | 2, _, _, _ | 3, _, _, _ | 4, _, _, _ | 5, _, _, _ | 6, _, _, _ => by
    constructor <;> (
      unfold kernelRunQ
      dsimp only
      sl_unfold_words
      simp (disch := (apply Rect.unit_disjoint 1; decide)) only [View.readCov_cons_toLoadRect, View.readCov_cons_of_disjoint,
        View.readAt_eq_ld, B.harg2.read_unread, B.harg3.read_unread, B.harg4.read_unread, B.harg12.read_unread,
        View.ld_unit_zero (S := S1x1x512x64) (show (![0, 0, 0, 0] : Fin 4 → Nat) = fun _ => 0 from funext fun a => by fin_cases a <;> rfl),
        pay_copies, pay_id_copies, pay_ids,
        pay105_eq, pay106_eq, pay107_eq]
      rfl)
  | 0, h, _, _ => absurd h (by decide)
  | _ + 7, _, h, _ => absurd h (by omega)

end Cert.KernelIdeal.Hand

end
-- ==== Proof.KI.OutPiece.lean ====
import proofs.«407351_j22883585753581_3_alg».proof.Proof.KI.Shared
import proofs.«407351_j22883585753581_3_alg».proof.Proof.KI.Steps
import proofs.«407351_j22883585753581_3_alg».proof.Proof.KI.PayIdCopies
import proofs.«407351_j22883585753581_3_alg».proof.Proof.KI.Loads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem

theorem hz4 : (![0, 0, 0, 0] : Fin 4 → Nat) = fun _ => 0 := funext fun a => by fin_cases a <;> rfl

theorem out3_read_piece (L5 : List (View.Piece (Elt Ideal) S1x1x512x64 .f32))
    (inb : ∀ a, (![0, 0, 0, 0] : Fin 4 → Nat) a + S1x1x512x64.size a ≤ S1x1x512x64.size a)
    (l : FVec Ideal S512x1 .f32) (a : FVec Ideal S512x64 .f32)
    (hL : L5 = [⟨Rect.unit ![0, 0, 0, 0] S1x1x512x64.size inb, k0_pay158 (F := Ideal) l a⟩])
    (r : Fin 512) (d : Fin 64) :
    VO0_3.read (Elt Ideal) (VO0_3.writes (Elt Ideal) VO0_3.junk L5) (ix4 (0 : Fin 1) (0 : Fin 1) r d)
      = a (ix2 r d) * Ideal.div 1 (l (ix2 r (0 : Fin 1))) := by
  subst hL
  rw [View.read_writes_eq_canon _ _ _ (fun y => ⟨_, List.mem_singleton_self _, View.mem_set_unit_zero hz4 inb y⟩),
    View.canon_unit_zero hz4]
  exact pay158_apply l a r d

theorem out3_value_of_pieces (x2 : Vec Ideal S1x1x512x64 .bf16) (x3 : Vec Ideal S1x1x64x4096 .bf16) (x4 : Vec Ideal S1x1x4096x64 .bf16)
    (n : Fin 8) (L5 : List (View.Piece (Elt Ideal) S1x1x512x64 .f32))
    (inb : ∀ a, (![0, 0, 0, 0] : Fin 4 → Nat) a + S1x1x512x64.size a ≤ S1x1x512x64.size a)
    (hL : L5 = [⟨Rect.unit ![0, 0, 0, 0] S1x1x512x64.size inb,
      k0_pay158 (F := Ideal) (bufsFinal (k0_pay104 (F := Ideal) x2) (Kc x3) (Vc x4) n).l
        (bufsFinal (k0_pay104 (F := Ideal) x2) (Kc x3) (Vc x4) n).acc⟩])
    (r : Fin 512) (d : Fin 64) :
    VO0_3.read (Elt Ideal) (VO0_3.writes (Elt Ideal) VO0_3.junk L5) (ix4 (0 : Fin 1) (0 : Fin 1) r d)
      = Attn.kerOut (Attn.blkS x2 x3) (Attn.blkV x4) n r d :=
  (out3_read_piece L5 inb _ _ hL r d).trans
    (out_bufsFinal x2 x3 x4 (k0_pay104 (F := Ideal) x2) (Kc x3) (Vc x4) (fun r d => pay104_apply x2 r d)
      (fun j d c => Kc_apply x3 j d c) (fun j c d => Vc_apply x4 j c d) n r d)

end Cert.KernelIdeal.Hand

end
-- ==== Proof.KI.OutValueMid.lean ====
import proofs.«407351_j22883585753581_3_alg».proof.Proof.KI.Frame
import proofs.«407351_j22883585753581_3_alg».proof.Proof.KI.PiecesMid
import proofs.«407351_j22883585753581_3_alg».proof.Proof.KI.OutPiece

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem

variable (c : Dev nD) (i : grid0.Coords) (B : Operands)
  (x2 : Vec Ideal S1x1x512x64 .bf16) (x3 : Vec Ideal S1x1x64x4096 .bf16) (x4 : Vec Ideal S1x1x4096x64 .bf16)

/-- A middle tile stores its output block once, from the final buffers of the chunks up to the diagonal. -/
theorem out3_mid_value (h1 : 1 ≤ (i 1).val) (h6 : (i 1).val ≤ 6) (xs12 : Vec Ideal S8x4096 .f32) (r : Fin 512) (d : Fin 64) :
    out3_mid (F := Ideal) c i B x2 x3 x4 h1 h6 xs12 (ix4 (0 : Fin 1) (0 : Fin 1) r d)
      = Attn.kerOut (Attn.blkS x2 x3) (Attn.blkV x4) ⟨(i 1).val, by omega⟩ r d := by
  unfold out3_mid kernelRunMid
  exact out3_value_of_pieces x2 x3 x4 ⟨(i 1).val, by omega⟩ _ _
    (pieces_q c i B x2 x3 x4 xs12 _ h1 h6 rfl).1 r d

end Cert.KernelIdeal.Hand

end
-- ==== Proof.KI.Pieces0.lean ====
import proofs.«407351_j22883585753581_3_alg».proof.Proof.KI.Run0
import proofs.«407351_j22883585753581_3_alg».proof.Proof.KI.AccCore
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem

def zeroFill : List (View.Piece (Elt Ideal) S8x4096 .f32) :=
  [⟨Rect.unit (s := S8x4096) ![0, 0] S8x4096.size inb_S8x4096_S8x4096_0_0, k0_pay103 (F := Ideal)⟩]

theorem zeroFill_read {sig' : RefSig} {κ : Kind} {sp : Space} (v : View sig' κ sp S8x4096 .f32) (f : v.ty.Contents (Elt Ideal)) :
    v.read (Elt Ideal) (v.writes (Elt Ideal) f zeroFill) = fun _ => (0 : EReal) := by
  have hz : (![0, 0] : Fin 2 → Nat) = fun _ => 0 := funext fun a => by fin_cases a <;> rfl
  unfold zeroFill
  rw [View.read_writes_eq_canon _ _ _ (fun y => ⟨_, List.mem_singleton_self _, View.mem_set_unit_zero hz inb_S8x4096_S8x4096_0_0 y⟩),
    View.canon_unit_zero hz, pay103_eq]

def zeroRow0 (arg12 : Memref sig .tc .vmem S8x4096 .f32) : FVec Ideal S1x512 .f32 :=
  arg12.view.readCov zeroFill (Rect.unit (s := S8x4096) ![0, 0] S1x512.size inb_S8x4096_S1x512_0_0).toLoadRect

theorem zeroRow0_apply (arg12 : Memref sig .tc .vmem S8x4096 .f32) (c : Fin 512) :
    zeroRow0 arg12 (ix2 (0 : Fin 1) c) = 0 := by
  have hz : (![0, 0] : Fin 2 → Nat) = fun _ => 0 := funext fun a => by fin_cases a <;> rfl
  unfold zeroRow0
  rw [View.readCov_eq_canon']
  show View.canon zeroFill _ = 0
  unfold zeroFill
  rw [View.canon_unit_zero hz, pay103_eq]

set_option maxHeartbeats 400000 in
theorem pieces_0 (c : Dev nD) (i : grid0.Coords) (B : Operands) (hq : (i 1).val = 0)
    (x2 : Vec Ideal S1x1x512x64 .bf16) (x3 : Vec Ideal S1x1x64x4096 .bf16) (x4 : Vec Ideal S1x1x4096x64 .bf16) :
    (kernelRun_0 (F := Ideal) c i B hq x2 x3 x4).1
      = [⟨Rect.unit ![0, 0, 0, 0] S1x1x512x64.size inb_S1x1x512x64_S1x1x512x64_0_0_0_0,
          k0_pay158 (F := Ideal) (bufsFinal (k0_pay104 (F := Ideal) x2) (Kc x3) (Vc x4) ⟨0, by decide⟩).l
            (bufsFinal (k0_pay104 (F := Ideal) x2) (Kc x3) (Vc x4) ⟨0, by decide⟩).acc⟩]
    ∧ (kernelRun_0 (F := Ideal) c i B hq x2 x3 x4).2.2.1
      = accPieces (Val := Elt Ideal) (tileW x2 x3 x4 (fun _ => zeroRow0 B.arg12) ⟨0, by decide⟩) 1 ++ zeroFill := by
  constructor <;> (
    unfold kernelRun_0
    dsimp only
    sl_unfold_words
    simp (disch := (apply Rect.unit_disjoint 1; decide)) only [View.readCov_cons_toLoadRect, View.readCov_cons_of_disjoint,
      View.readAt_eq_ld, B.harg2.read_unread, B.harg3.read_unread, B.harg4.read_unread, B.harg12.read_unread,
      View.ld_unit_zero (S := S1x1x512x64) (show (![0, 0, 0, 0] : Fin 4 → Nat) = fun _ => 0 from funext fun a => by fin_cases a <;> rfl),
      pay_copies, pay_id_copies, pay_ids,
      pay105_eq, pay106_eq, pay107_eq]
    rfl)

end Cert.KernelIdeal.Hand

end
-- ==== Proof.KI.Pieces7.lean ====
import proofs.«407351_j22883585753581_3_alg».proof.Proof.KI.Run7
import proofs.«407351_j22883585753581_3_alg».proof.Proof.KI.AccCore
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem

set_option maxHeartbeats 600000 in
theorem pieces_7 (c : Dev nD) (i : grid0.Coords) (B : Operands) (hq : (i 1).val = 7)
    (x2 : Vec Ideal S1x1x512x64 .bf16) (x3 : Vec Ideal S1x1x64x4096 .bf16) (x4 : Vec Ideal S1x1x4096x64 .bf16) (xs12 : Vec Ideal S8x4096 .f32) :
    (kernelRun_7 (F := Ideal) c i B hq x2 x3 x4 xs12).1
      = [⟨Rect.unit ![0, 0, 0, 0] S1x1x512x64.size inb_S1x1x512x64_S1x1x512x64_0_0_0_0,
          k0_pay158 (F := Ideal) (bufsFinal (k0_pay104 (F := Ideal) x2) (Kc x3) (Vc x4) ⟨7, by decide⟩).l
            (bufsFinal (k0_pay104 (F := Ideal) x2) (Kc x3) (Vc x4) ⟨7, by decide⟩).acc⟩]
    ∧ (kernelRun_7 (F := Ideal) c i B hq x2 x3 x4 xs12).2.2.1
      = accPieces (Val := Elt Ideal) (tileW x2 x3 x4 (XfOf xs12) ⟨7, by decide⟩) ((⟨7, by decide⟩ : Fin 8).val + 1)
    ∧ (kernelRun_7 (F := Ideal) c i B hq x2 x3 x4 xs12).2.1
      = [⟨Rect.unit ![0, 0, 0, 0] S1x1x1x4096.size inb_S1x1x1x4096_S1x1x1x4096_0_0_0_0,
          k0_pay6 (F := Ideal) (B.arg12.view.readCov
            (accPieces (Val := Elt Ideal) (tileW x2 x3 x4 (XfOf xs12) ⟨7, by decide⟩) ((⟨7, by decide⟩ : Fin 8).val + 1))
            (Rect.unit (s := S8x4096) ![0, 0] S1x4096.size inb_S8x4096_S1x4096_0_0).toLoadRect)⟩] := by
  refine ⟨?_, ?_, ?_⟩ <;> (
    unfold kernelRun_7
    dsimp only
    sl_unfold_words
    simp (disch := (apply Rect.unit_disjoint 1; decide)) only [View.readCov_cons_toLoadRect, View.readCov_cons_of_disjoint,
      View.readAt_eq_ld, B.harg2.read_unread, B.harg3.read_unread, B.harg4.read_unread, B.harg12.read_unread,
      View.ld_unit_zero (S := S1x1x512x64) (show (![0, 0, 0, 0] : Fin 4 → Nat) = fun _ => 0 from funext fun a => by fin_cases a <;> rfl),
      pay_copies, pay_id_copies, pay_ids,
      pay105_eq, pay106_eq, pay107_eq]
    rfl)

end Cert.KernelIdeal.Hand

end
-- ==== Proof.KI.OutValueEnds.lean ====
import proofs.«407351_j22883585753581_3_alg».proof.Proof.KI.Frame
import proofs.«407351_j22883585753581_3_alg».proof.Proof.KI.Pieces0
import proofs.«407351_j22883585753581_3_alg».proof.Proof.KI.Pieces7
import proofs.«407351_j22883585753581_3_alg».proof.Proof.KI.OutPiece

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem

section Runs

variable (c : Dev nD) (i : grid0.Coords) (B : Operands)
  (x2 : Vec Ideal S1x1x512x64 .bf16) (x3 : Vec Ideal S1x1x64x4096 .bf16) (x4 : Vec Ideal S1x1x4096x64 .bf16)

theorem out3_run0_value (hq : (i 1).val = 0) (r : Fin 512) (d : Fin 64) :
    VO0_3.read (Elt Ideal) (VO0_3.writes (Elt Ideal) VO0_3.junk (kernelRun_0 (F := Ideal) c i B hq x2 x3 x4).1) (ix4 (0 : Fin 1) (0 : Fin 1) r d)
      = Attn.kerOut (Attn.blkS x2 x3) (Attn.blkV x4) ⟨0, by decide⟩ r d :=
  out3_value_of_pieces x2 x3 x4 ⟨0, by decide⟩ _ _ (pieces_0 c i B hq x2 x3 x4).1 r d

theorem out3_run7_value (hq : (i 1).val = 7) (xs12 : Vec Ideal S8x4096 .f32) (r : Fin 512) (d : Fin 64) :
    VO0_3.read (Elt Ideal) (VO0_3.writes (Elt Ideal) VO0_3.junk (kernelRun_7 (F := Ideal) c i B hq x2 x3 x4 xs12).1) (ix4 (0 : Fin 1) (0 : Fin 1) r d)
      = Attn.kerOut (Attn.blkS x2 x3) (Attn.blkV x4) ⟨7, by decide⟩ r d :=
  out3_value_of_pieces x2 x3 x4 ⟨7, by decide⟩ _ _ (pieces_7 c i B hq x2 x3 x4 xs12).1 r d

theorem out3_first_value (hq : (i 1).val = 0) (r : Fin 512) (d : Fin 64) :
    out3_first (F := Ideal) c i B x2 x3 x4 hq (ix4 (0 : Fin 1) (0 : Fin 1) r d)
      = Attn.kerOut (Attn.blkS x2 x3) (Attn.blkV x4) ⟨0, by decide⟩ r d :=
  out3_run0_value c i B x2 x3 x4 hq r d

theorem out3_last_value (hq : (i 1).val = 7) (xs12 : Vec Ideal S8x4096 .f32) (r : Fin 512) (d : Fin 64) :
    out3_last (F := Ideal) c i B x2 x3 x4 hq xs12 (ix4 (0 : Fin 1) (0 : Fin 1) r d)
      = Attn.kerOut (Attn.blkS x2 x3) (Attn.blkV x4) ⟨7, by decide⟩ r d :=
  out3_run7_value c i B x2 x3 x4 hq xs12 r d

end Runs

end Cert.KernelIdeal.Hand

end
-- ==== Proof.KI.AccMid.lean ====
import proofs.«407351_j22883585753581_3_alg».proof.Proof.KI.Frame
import proofs.«407351_j22883585753581_3_alg».proof.Proof.KI.PiecesMid
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (c : Dev nD) (i : grid0.Coords) (B : Operands)
  (x2 : Vec Ideal S1x1x512x64 .bf16) (x3 : Vec Ideal S1x1x64x4096 .bf16) (x4 : Vec Ideal S1x1x4096x64 .bf16)

/-- A middle tile adds its column sums into the chunks up to the diagonal and leaves the rest of row 0 as it was. -/
theorem sout12_mid_value (h1 : 1 ≤ (i 1).val) (h6 : (i 1).val ≤ 6) (xs12 : Vec Ideal S8x4096 .f32) (t : Fin 4096) :
    sout12_mid (F := Ideal) c i B x2 x3 x4 h1 h6 xs12 (ix2 (0 : Fin 8) t)
      = if (Attn.tileOf t).val ≤ (i 1).val
          then xs12 (ix2 (0 : Fin 8) t)
            + Attn.tileColSum (Attn.blkS x2 x3) (Attn.blkV x4) ⟨(i 1).val, by omega⟩ (Attn.tileOf t) (Attn.rowOf t)
          else xs12 (ix2 (0 : Fin 8) t) := by
  unfold sout12_mid kernelRunMid
  exact acc_of_pieces B.arg12 B.harg12 x2 x3 x4 xs12 ⟨(i 1).val, by omega⟩ _
    (pieces_q c i B x2 x3 x4 xs12 _ h1 h6 rfl).2 t

end Cert.KernelIdeal.Hand

end
-- ==== Proof.KI.AccValue.lean ====
import proofs.«407351_j22883585753581_3_alg».proof.Proof.KI.AccMid
import proofs.«407351_j22883585753581_3_alg».proof.Proof.KI.Pieces0
import proofs.«407351_j22883585753581_3_alg».proof.Proof.KI.Pieces7
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

theorem out4_read_piece (L6 : List (View.Piece (Elt Ideal) S1x1x1x4096 .f32))
    (inb : ∀ a, (![0, 0, 0, 0] : Fin 4 → Nat) a + S1x1x1x4096.size a ≤ S1x1x1x4096.size a)
    (w : FVec Ideal S1x4096 .f32)
    (hL : L6 = [⟨Rect.unit ![0, 0, 0, 0] S1x1x1x4096.size inb, k0_pay6 (F := Ideal) w⟩]) (t : Fin 4096) :
    VO0_4.read (Elt Ideal) (VO0_4.writes (Elt Ideal) VO0_4.junk L6) (ix4 (0 : Fin 1) (0 : Fin 1) (0 : Fin 1) t)
      = w (ix2 (0 : Fin 1) t) := by
  subst hL
  have hz : (![0, 0, 0, 0] : Fin 4 → Nat) = fun _ => 0 := funext fun a => by fin_cases a <;> rfl
  rw [View.read_writes_eq_canon _ _ _ (fun y => ⟨_, List.mem_singleton_self _, View.mem_set_unit_zero hz inb y⟩),
    View.canon_unit_zero hz]
  exact pay6_apply w t

section AccValue

variable (c : Dev nD) (i : grid0.Coords) (B : Operands)
  (x2 : Vec Ideal S1x1x512x64 .bf16) (x3 : Vec Ideal S1x1x64x4096 .bf16) (x4 : Vec Ideal S1x1x4096x64 .bf16)

theorem accRun_0 (hq : (i 1).val = 0) (t : Fin 4096) :
    VS0_5.read (Elt Ideal) (VS0_5.writes (Elt Ideal) VS0_5.junk (kernelRun_0 (F := Ideal) c i B hq x2 x3 x4).2.2.1) (ix2 (0 : Fin 8) t)
      = if (Attn.tileOf t).val ≤ 0
          then 0 + Attn.tileColSum (Attn.blkS x2 x3) (Attn.blkV x4) ⟨0, by decide⟩ (Attn.tileOf t) (Attn.rowOf t)
          else 0 := by
  exact acc_of_pieces_first VS0_5 VS0_5.junk x2 x3 x4 (zeroRow0 B.arg12) (zeroRow0_apply B.arg12) zeroFill
    (zeroFill_read VS0_5 VS0_5.junk) _ (pieces_0 c i B hq x2 x3 x4).2 t

theorem accRun_7 (hq : (i 1).val = 7) (xs12 : Vec Ideal S8x4096 .f32) (n : Fin 8) (hn : n.val = 7) (t : Fin 4096) :
    B.arg12.view.read (Elt Ideal) (B.arg12.view.writes (Elt Ideal) (B.harg12.unread xs12) (kernelRun_7 (F := Ideal) c i B hq x2 x3 x4 xs12).2.2.1) (ix2 (0 : Fin 8) t)
      = if (Attn.tileOf t).val ≤ n.val
          then xs12 (ix2 (0 : Fin 8) t) + Attn.tileColSum (Attn.blkS x2 x3) (Attn.blkV x4) n (Attn.tileOf t) (Attn.rowOf t)
          else xs12 (ix2 (0 : Fin 8) t) := by
  obtain rfl : n = ⟨7, by decide⟩ := Fin.ext hn
  exact acc_of_pieces B.arg12 B.harg12 x2 x3 x4 xs12 ⟨7, by decide⟩ _
    (pieces_7 c i B hq x2 x3 x4 xs12).2.1 t

theorem sout12_first_value (hq : (i 1).val = 0) (t : Fin 4096) :
    sout12_first (F := Ideal) c i B x2 x3 x4 hq (ix2 (0 : Fin 8) t)
      = if (Attn.tileOf t).val ≤ 0
          then 0 + Attn.tileColSum (Attn.blkS x2 x3) (Attn.blkV x4) ⟨0, by decide⟩ (Attn.tileOf t) (Attn.rowOf t)
          else 0 := by
  unfold sout12_first
  exact accRun_0 c i B x2 x3 x4 hq t

theorem sout12_last_value (hq : (i 1).val = 7) (xs12 : Vec Ideal S8x4096 .f32) (t : Fin 4096) :
    sout12_last (F := Ideal) c i B x2 x3 x4 hq xs12 (ix2 (0 : Fin 8) t)
      = if (Attn.tileOf t).val ≤ 7
          then xs12 (ix2 (0 : Fin 8) t)
            + Attn.tileColSum (Attn.blkS x2 x3) (Attn.blkV x4) ⟨7, by decide⟩ (Attn.tileOf t) (Attn.rowOf t)
          else xs12 (ix2 (0 : Fin 8) t) := by
  unfold sout12_last
  exact accRun_7 c i B x2 x3 x4 hq xs12 ⟨7, by decide⟩ rfl t

theorem out4_last_value (hq : (i 1).val = 7) (xs12 : Vec Ideal S8x4096 .f32) (t : Fin 4096) :
    out4_last (F := Ideal) c i B x2 x3 x4 hq xs12 (ix4 (0 : Fin 1) (0 : Fin 1) (0 : Fin 1) t)
      = sout12_last (F := Ideal) c i B x2 x3 x4 hq xs12 (ix2 (0 : Fin 8) t) := by
  have hlt : (Attn.tileOf t).val < (⟨7, by decide⟩ : Fin 8).val + 1 := by
    have := (Attn.tileOf t).isLt
    show _ < 7 + 1
    omega
  unfold out4_last sout12_last
  rw [(pieces_7 c i B hq x2 x3 x4 xs12).2.1]
  refine (out4_read_piece _ _ _ (pieces_7 c i B hq x2 x3 x4 xs12).2.2 t).trans ?_
  refine (ldXrow_apply (B.arg12.view.read (Elt Ideal) (B.arg12.view.writes (Elt Ideal) B.arg12.view.junk
    (accPieces (Val := Elt Ideal) (tileW x2 x3 x4 (XfOf xs12) ⟨7, by decide⟩) ((⟨7, by decide⟩ : Fin 8).val + 1))))
    inb_S8x4096_S1x4096_0_0 t).trans ?_
  rw [read_accPieces _ _ _ _ (by decide) t, read_accPieces _ _ _ _ (by decide) t, if_pos hlt, if_pos hlt]

end AccValue

end Cert.KernelIdeal.Hand

end
-- ==== Proof.KI.Values.lean ====
import proofs.«407351_j22883585753581_3_alg».proof.Proof.KI.Frame
import proofs.«407351_j22883585753581_3_alg».proof.Proof.KI.Points
import proofs.«407351_j22883585753581_3_alg».proof.Proof.Blocks
import proofs.«407351_j22883585753581_3_alg».proof.Proof.KI.OutValueMid
import proofs.«407351_j22883585753581_3_alg».proof.Proof.KI.OutValueEnds
import proofs.«407351_j22883585753581_3_alg».proof.Proof.KI.AccValue
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section Values

variable (m : (ℓ : Loc nD τ sig) → Buf (Elt Ideal) ℓ)

theorem rsAcc_step (S S' : Attn.Mat 4096 4096) (V : Attn.Mat 4096 64) (k : ℕ) (hk : k < 8) (s : Fin 4096) (x : EReal)
    (hx : x = Attn.rsAcc S V k s) (hS : ∀ r u, S' (Attn.gk ⟨k, hk⟩ r) u = S (Attn.gk ⟨k, hk⟩ r) u) :
    (if (Attn.tileOf s).val ≤ k then x + Attn.tileColSum S' V ⟨k, hk⟩ (Attn.tileOf s) (Attn.rowOf s) else x)
      = Attn.rsAcc S V (k + 1) s := by
  subst hx
  rw [Attn.tileColSum_congr S' S V ⟨k, hk⟩ hS, Attn.rsAcc, dif_pos hk]

theorem rsAcc_zero (S : Attn.Mat 4096 4096) (V : Attn.Mat 4096 64) (s : Fin 4096) : (0 : EReal) = Attn.rsAcc S V 0 s := by
  rw [Attn.rsAcc]

theorem blkS_eq' (c : Dev nD) (t : Fin cfg0.N) (n : ℕ) (hn : n < 8) (h : t.val % 8 = n) (r : Fin 512) (s : Fin 4096) :
    (Attn.blkS (qblk m c t) (kblk m c t)) (Attn.gk ⟨n, hn⟩ r) s = Attn.headS (A0 m c) (A1 m c) (hd t) (Attn.gk ⟨n, hn⟩ r) s := by
  have hq : (⟨n, hn⟩ : Fin 8) = qi t := Fin.ext h.symm
  rw [hq]
  exact blkS_eq m c t r s

theorem kerOut_point (c : Dev nD) (t : Fin cfg0.N) (n : ℕ) (hn : n < 8) (h : t.val % 8 = n) (r : Fin 512) (d : Fin 64) :
    Attn.kerOut (Attn.blkS (qblk m c t) (kblk m c t)) (Attn.blkV (vblk m c t)) ⟨n, hn⟩ r d
      = Attn.kerOut (Attn.headS (A0 m c) (A1 m c) (hd t)) (Attn.headQ (A2 m c) (hd t)) (qi t) r d := by
  have hq : (⟨n, hn⟩ : Fin 8) = qi t := Fin.ext h.symm
  rw [hq, blkV_eq]
  exact Attn.kerOut_congr _ _ _ (qi t) r (fun s => blkS_eq m c t r s) d

/-- A point's output block is the specification's output of its head and tile, the point's blocks being the head's. -/
theorem out_point (c : Dev nD) (t : Fin cfg0.N) (r : Fin 512) (d : Fin 64) :
    (outsAt0 m c t.val t.isLt).1 (ix4 (0 : Fin 1) (0 : Fin 1) r d) = Attn.kerOut (Attn.headS (A0 m c) (A1 m c) (hd t)) (Attn.headQ (A2 m c) (hd t)) (qi t) r d := by
  by_cases h0 : t.val % 8 = 0
  · rw [outsAt0_first m c t h0]; dsimp only [stepFirst]
    exact (out3_first_value c _ _ (qblk m c t) (kblk m c t) (vblk m c t) (hq_first t h0) r d).trans (kerOut_point m c t 0 (by decide) h0 r d)
  · by_cases h7 : t.val % 8 = 7
    · rw [outsAt0_last m c t h7]; dsimp only [stepLast]
      exact (out3_last_value c _ _ (qblk m c t) (kblk m c t) (vblk m c t) (hq_last t h7) (prev12 m c t) r d).trans (kerOut_point m c t 7 (by decide) h7 r d)
    · rw [outsAt0_mid m c t h0 h7]; dsimp only [stepMid]
      exact (out3_mid_value c _ _ (qblk m c t) (kblk m c t) (vblk m c t) (hq_mid1 t h0) (hq_mid6 t h7) (prev12 m c t) r d).trans
        (kerOut_point m c t ((grid0.coords t) 1).val (by have := hq_mid6 t h7; omega) (coords_qi t).symm r d)

theorem acc_next (c : Dev nD) (t : Fin cfg0.N) (k : ℕ) (hk : k < 8) (h : t.val % 8 = k) (h0 : t.val % 8 ≠ 0) (s : Fin 4096)
    (ih : ∀ t' : Fin cfg0.N, t'.val = t.val - 1 → (outsAt0 m c t'.val t'.isLt).2.2 (ix2 (0 : Fin 8) s)
      = Attn.rsAcc (Attn.headS (A0 m c) (A1 m c) (hd t')) (Attn.headQ (A2 m c) (hd t')) (t'.val % 8 + 1) s) :
    (if (Attn.tileOf s).val ≤ k then prev12 m c t (ix2 (0 : Fin 8) s) + Attn.tileColSum (Attn.blkS (qblk m c t) (kblk m c t)) (Attn.blkV (vblk m c t)) ⟨k, hk⟩ (Attn.tileOf s) (Attn.rowOf s)
      else prev12 m c t (ix2 (0 : Fin 8) s)) = Attn.rsAcc (Attn.headS (A0 m c) (A1 m c) (hd t)) (Attn.headQ (A2 m c) (hd t)) (k + 1) s := by
  have hp := ih ⟨t.val - 1, Nat.lt_of_le_of_lt (Nat.sub_le _ _) t.isLt⟩ rfl
  have hh : hd ⟨t.val - 1, Nat.lt_of_le_of_lt (Nat.sub_le _ _) t.isLt⟩ = hd t := Fin.ext (by show (t.val - 1) / 8 = t.val / 8; omega)
  have hk' : (t.val - 1) % 8 + 1 = k := by omega
  rw [hh] at hp
  rw [blkV_eq]
  exact rsAcc_step (Attn.headS (A0 m c) (A1 m c) (hd t)) (Attn.blkS (qblk m c t) (kblk m c t)) (Attn.headQ (A2 m c) (hd t)) k hk s _ (hp.trans (by rw [hk'])) (fun r u => blkS_eq' m c t k hk h r u)

/-- Induction along a head's tiles: after tile `k` the scratch row is the column sum over tiles `0..k`. -/
theorem acc_point (c : Dev nD) : ∀ (n : ℕ) (t : Fin cfg0.N), t.val = n → ∀ s : Fin 4096,
    (outsAt0 m c t.val t.isLt).2.2 (ix2 (0 : Fin 8) s) = Attn.rsAcc (Attn.headS (A0 m c) (A1 m c) (hd t)) (Attn.headQ (A2 m c) (hd t)) (t.val % 8 + 1) s := by
  intro n
  induction n using Nat.strong_induction_on with
  | _ n ih =>
    intro t ht s
    by_cases h0 : t.val % 8 = 0
    · rw [outsAt0_first m c t h0]; dsimp only [stepFirst]
      refine (sout12_first_value c _ _ (qblk m c t) (kblk m c t) (vblk m c t) (hq_first t h0) s).trans ?_
      rw [blkV_eq, h0]
      exact rsAcc_step (Attn.headS (A0 m c) (A1 m c) (hd t)) (Attn.blkS (qblk m c t) (kblk m c t)) (Attn.headQ (A2 m c) (hd t)) 0 (by decide) s 0 (rsAcc_zero _ _ s) (fun r u => blkS_eq' m c t 0 (by decide) h0 r u)
    · have ih' : ∀ t' : Fin cfg0.N, t'.val = t.val - 1 → (outsAt0 m c t'.val t'.isLt).2.2 (ix2 (0 : Fin 8) s)
          = Attn.rsAcc (Attn.headS (A0 m c) (A1 m c) (hd t')) (Attn.headQ (A2 m c) (hd t')) (t'.val % 8 + 1) s :=
        fun t' ht' => ih t'.val (by omega) t' rfl s
      by_cases h7 : t.val % 8 = 7
      · rw [outsAt0_last m c t h7]; dsimp only [stepLast]
        refine (sout12_last_value c _ _ (qblk m c t) (kblk m c t) (vblk m c t) (hq_last t h7) (prev12 m c t) s).trans ?_
        rw [h7]
        exact acc_next m c t 7 (by decide) h7 h0 s ih'
      · rw [outsAt0_mid m c t h0 h7]; dsimp only [stepMid]
        refine (sout12_mid_value c _ _ (qblk m c t) (kblk m c t) (vblk m c t) (hq_mid1 t h0) (hq_mid6 t h7) (prev12 m c t) s).trans ?_
        have hq := coords_qi t
        have hlt : ((grid0.coords t) 1).val < 8 := by have := hq_mid6 t h7; omega
        rw [← hq]
        exact acc_next m c t ((grid0.coords t) 1).val hlt hq.symm h0 s ih'

/-- At a head's last tile the column-sum block is the finished scratch row. -/
theorem rs_point (c : Dev nD) (t : Fin cfg0.N) (h : t.val % 8 = 7) (s : Fin 4096) :
    (outsAt0 m c t.val t.isLt).2.1 (ix4 (0 : Fin 1) (0 : Fin 1) (0 : Fin 1) s) = Attn.kerRS (Attn.headS (A0 m c) (A1 m c) (hd t)) (Attn.headQ (A2 m c) (hd t)) s := by
  have e := acc_point m c t.val t rfl s
  rw [outsAt0_last m c t h] at e ⊢
  dsimp only [stepLast] at e ⊢
  refine (out4_last_value c _ _ (qblk m c t) (kblk m c t) (vblk m c t) (hq_last t h) (prev12 m c t) s).trans (e.trans ?_)
  rw [h]
  rfl

end Values

end Cert.KernelIdeal.Hand

end
-- ==== Proof.KI.Arrays.lean ====
import proofs.«407351_j22883585753581_3_alg».proof.Proof.KI.Values
import Idealize.ShloMosaic.Lib.Pipeline.Value
import Idealize.ShloMosaic.Lib.Pipeline.FrameSuffix
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section Arrays

variable (m : (ℓ : Loc nD τ sig) → Buf (Elt Ideal) ℓ) (ρ : Dev nD → PrngReg)

theorem flushed3_apply (c : Dev nD) (t : Fin cfg0.N) (j : S1x1x512x64.Idx) (i : S1x16x4096x64.Idx)
    (h1 : (i 1).val = t.val / 8) (h2 : (i 2).val = 512 * (t.val % 8) + (j 2).val) (h3 : (i 3).val = (j 3).val) :
    (outsAt0 m c t.val t.isLt).1 j = (Attn.kOutArr (A0 m c) (A1 m c) (A2 m c)) i := by
  have e0 : j 0 = (0 : Fin 1) := Fin.ext (Nat.lt_one_iff.mp (j 0).isLt)
  have e1 : j 1 = (0 : Fin 1) := Fin.ext (Nat.lt_one_iff.mp (j 1).isLt)
  have hj : j = ix4 (0 : Fin 1) (0 : Fin 1) (j 2) (j 3) :=
    funext fun a => match a with | ⟨0, _⟩ => e0 | ⟨1, _⟩ => e1 | ⟨2, _⟩ => rfl | ⟨3, _⟩ => rfl
  have hj2 : (j 2).val < 512 := (j 2).isLt
  have hi1 : i 1 = hd t := Fin.ext h1
  have hti : Attn.tileOf (i 2) = qi t := Fin.ext (by show (i 2).val / 512 = t.val % 8; omega)
  have hri : Attn.rowOf (i 2) = j 2 := Fin.ext (by show (i 2).val % 512 = (j 2).val; omega)
  have hi3 : i 3 = j 3 := Fin.ext h3
  refine (congrArg (outsAt0 m c t.val t.isLt).1 hj).trans ?_
  refine (out_point m c t (j 2) (j 3)).trans ?_
  show _ = Attn.kerOut (Attn.headS _ _ (i 1)) (Attn.headQ _ (i 1)) (Attn.tileOf (i 2)) (Attn.rowOf (i 2)) (i 3)
  rw [hi1, hti, hri, hi3]

theorem flushed_eq3 (c : Dev nD) (t : Fin cfg0.N) :
    (dats m 0 c).flushed 3 t = ((cfg0.win 3).blk t).view.read (Elt Ideal) (Attn.kOutArr (A0 m c) (A1 m c) (A2 m c)) := by
  show (cfg0.win 3).cut (grid0.coords t) ((dats m 0 c).after 3 t) = _
  rw [after0_3]
  obtain ⟨-, -, -, ⟨e0, e1, e2, e3⟩, -⟩ := idx_facts t
  funext j
  show (outsAt0 m c t.val t.isLt).1 j = (Attn.kOutArr (A0 m c) (A1 m c) (A2 m c)) (((cfg0.win 3).blk t).view.emb j)
  have hj1 : (j 1).val < 1 := (j 1).isLt
  refine flushed3_apply m c t j (((cfg0.win 3).blk t).view.emb j) ?_ ?_ ?_
  · show win0_3.index t (1 : Fin 4) * 1 + 1 * (j 1).val = t.val / 8; omega
  · show win0_3.index t (2 : Fin 4) * 512 + 1 * (j 2).val = 512 * (t.val % 8) + (j 2).val; omega
  · show win0_3.index t (3 : Fin 4) * 64 + 1 * (j 3).val = (j 3).val; omega

theorem mem_blk3 (t : Fin cfg0.N) (i : S1x16x4096x64.Idx) :
    i ∈ ((cfg0.win 3).blk t).view.set ↔ ∀ a : Fin 4, win0_3.index t a * S1x1x512x64.size a ≤ (i a).val ∧ (i a).val < win0_3.index t a * S1x1x512x64.size a + S1x1x512x64.size a := by
  show i ∈ ((View.whole main_v3_0).slice (win0_3.rect t)).set ↔ _
  rw [View.set_slice_whole, Rect.mem_set_unit]
  exact Iff.rfl

theorem cover3 (i : S1x16x4096x64.Idx) : ∃ t : Fin cfg0.N, (cfg0.win 3).flush t = true ∧ i ∈ ((cfg0.win 3).blk t).view.set := by
  have h0 : (i 0).val < 1 := (i 0).isLt
  have h1 : (i 1).val < 16 := (i 1).isLt
  have h2 : (i 2).val < 4096 := (i 2).isLt
  have h3 : (i 3).val < 64 := (i 3).isLt
  have hlt : 8 * (i 1).val + (i 2).val / 512 < cfg0.N := lt_of_lt_of_eq (by omega : 8 * (i 1).val + (i 2).val / 512 < 128) N_eq.symm
  refine ⟨⟨8 * (i 1).val + (i 2).val / 512, hlt⟩, flush0_3 _, ?_⟩
  rw [mem_blk3]
  obtain ⟨-, -, -, ⟨e0, e1, e2, e3⟩, -⟩ := idx_facts ⟨8 * (i 1).val + (i 2).val / 512, hlt⟩
  have ht : (⟨8 * (i 1).val + (i 2).val / 512, hlt⟩ : Fin cfg0.N).val = 8 * (i 1).val + (i 2).val / 512 := rfl
  rw [ht] at e1 e2
  intro a
  match a with
  | ⟨0, _⟩ => show win0_3.index _ (0 : Fin 4) * 1 ≤ (i 0).val ∧ (i 0).val < win0_3.index _ (0 : Fin 4) * 1 + 1; omega
  | ⟨1, _⟩ => show win0_3.index _ (1 : Fin 4) * 1 ≤ (i 1).val ∧ (i 1).val < win0_3.index _ (1 : Fin 4) * 1 + 1; omega
  | ⟨2, _⟩ => show win0_3.index _ (2 : Fin 4) * 512 ≤ (i 2).val ∧ (i 2).val < win0_3.index _ (2 : Fin 4) * 512 + 512; omega
  | ⟨3, _⟩ => show win0_3.index _ (3 : Fin 4) * 64 ≤ (i 3).val ∧ (i 3).val < win0_3.index _ (3 : Fin 4) * 64 + 64; omega

/-- Every index lies in the block of its head and tile, so the array is the specification's, entry by entry. -/
theorem final3 (c : Dev nD) : (dats m 0 c).arrAt 3 cfg0.N = (Attn.kOutArr (A0 m c) (A1 m c) (A2 m c)) :=
  (dats m 0 c).arrAt_eq_of_cover 3 (Attn.kOutArr (A0 m c) (A1 m c) (A2 m c)) (fun t _ => flushed_eq3 m c t) cover3

end Arrays

section ColumnSums

variable (m : (ℓ : Loc nD τ sig) → Buf (Elt Ideal) ℓ) (ρ : Dev nD → PrngReg)

def rsArr4 (c : Dev nD) : S1x16x1x4096.Idx → EReal :=
  fun i => (Attn.kRsArr (A0 m c) (A1 m c) (A2 m c)) (ix3 (0 : Fin 1) (i 1 : Fin 16) (i 3 : Fin 4096))

theorem flushed4_apply (c : Dev nD) (t : Fin cfg0.N) (h : t.val % 8 = 7) (j : S1x1x1x4096.Idx) (i : S1x16x1x4096.Idx)
    (h1 : (i 1).val = t.val / 8) (h3 : (i 3).val = (j 3).val) :
    (outsAt0 m c t.val t.isLt).2.1 j = rsArr4 m c i := by
  have e0 : j 0 = (0 : Fin 1) := Fin.ext (Nat.lt_one_iff.mp (j 0).isLt)
  have e1 : j 1 = (0 : Fin 1) := Fin.ext (Nat.lt_one_iff.mp (j 1).isLt)
  have e2 : j 2 = (0 : Fin 1) := Fin.ext (Nat.lt_one_iff.mp (j 2).isLt)
  have hj : j = ix4 (0 : Fin 1) (0 : Fin 1) (0 : Fin 1) (j 3) :=
    funext fun a => match a with | ⟨0, _⟩ => e0 | ⟨1, _⟩ => e1 | ⟨2, _⟩ => e2 | ⟨3, _⟩ => rfl
  have hi1 : (i 1 : Fin 16) = hd t := Fin.ext h1
  have hi3 : (i 3 : Fin 4096) = j 3 := Fin.ext h3
  refine (congrArg (outsAt0 m c t.val t.isLt).2.1 hj).trans ?_
  refine (rs_point m c t h (j 3)).trans ?_
  show _ = Attn.kerRS (Attn.headS _ _ (i 1 : Fin 16)) (Attn.headQ _ (i 1 : Fin 16)) (i 3 : Fin 4096)
  rw [hi1, hi3]

theorem flushed_eq4 (c : Dev nD) (t : Fin cfg0.N) (hf : (cfg0.win 4).flush t = true) :
    (dats m 0 c).flushed 4 t = ((cfg0.win 4).blk t).view.read (Elt Ideal) (rsArr4 m c) := by
  have h7 : t.val % 8 = 7 := (flush0_4 t).mp hf
  show (cfg0.win 4).cut (grid0.coords t) ((dats m 0 c).after 4 t) = _
  rw [after0_4]
  obtain ⟨-, -, -, -, e0, e1, e2, e3⟩ := idx_facts t
  funext j
  show (outsAt0 m c t.val t.isLt).2.1 j = rsArr4 m c (((cfg0.win 4).blk t).view.emb j)
  have hj1 : (j 1).val < 1 := (j 1).isLt
  refine flushed4_apply m c t h7 j (((cfg0.win 4).blk t).view.emb j) ?_ ?_
  · show win0_4.index t (1 : Fin 4) * 1 + 1 * (j 1).val = t.val / 8; omega
  · show win0_4.index t (3 : Fin 4) * 4096 + 1 * (j 3).val = (j 3).val; omega

theorem mem_blk4 (t : Fin cfg0.N) (i : S1x16x1x4096.Idx) :
    i ∈ ((cfg0.win 4).blk t).view.set ↔ ∀ a : Fin 4, win0_4.index t a * S1x1x1x4096.size a ≤ (i a).val ∧ (i a).val < win0_4.index t a * S1x1x1x4096.size a + S1x1x1x4096.size a := by
  show i ∈ ((View.whole main_v3_1).slice (win0_4.rect t)).set ↔ _
  rw [View.set_slice_whole, Rect.mem_set_unit]
  exact Iff.rfl

theorem cover4 (i : S1x16x1x4096.Idx) : ∃ t : Fin cfg0.N, (cfg0.win 4).flush t = true ∧ i ∈ ((cfg0.win 4).blk t).view.set := by
  have h0 : (i 0).val < 1 := (i 0).isLt
  have h1 : (i 1).val < 16 := (i 1).isLt
  have h2 : (i 2).val < 1 := (i 2).isLt
  have h3 : (i 3).val < 4096 := (i 3).isLt
  have hlt : 8 * (i 1).val + 7 < cfg0.N := lt_of_lt_of_eq (by omega : 8 * (i 1).val + 7 < 128) N_eq.symm
  refine ⟨⟨8 * (i 1).val + 7, hlt⟩, (flush0_4 _).mpr (by show (8 * (i 1).val + 7) % 8 = 7; omega), ?_⟩
  rw [mem_blk4]
  obtain ⟨-, -, -, -, e0, e1, e2, e3⟩ := idx_facts ⟨8 * (i 1).val + 7, hlt⟩
  have ht : (⟨8 * (i 1).val + 7, hlt⟩ : Fin cfg0.N).val = 8 * (i 1).val + 7 := rfl
  rw [ht] at e1
  intro a
  match a with
  | ⟨0, _⟩ => show win0_4.index _ (0 : Fin 4) * 1 ≤ (i 0).val ∧ (i 0).val < win0_4.index _ (0 : Fin 4) * 1 + 1; omega
  | ⟨1, _⟩ => show win0_4.index _ (1 : Fin 4) * 1 ≤ (i 1).val ∧ (i 1).val < win0_4.index _ (1 : Fin 4) * 1 + 1; omega
  | ⟨2, _⟩ => show win0_4.index _ (2 : Fin 4) * 1 ≤ (i 2).val ∧ (i 2).val < win0_4.index _ (2 : Fin 4) * 1 + 1; omega
  | ⟨3, _⟩ => show win0_4.index _ (3 : Fin 4) * 4096 ≤ (i 3).val ∧ (i 3).val < win0_4.index _ (3 : Fin 4) * 4096 + 4096; omega

theorem final4 (c : Dev nD) : (dats m 0 c).arrAt 4 cfg0.N = rsArr4 m c :=
  (dats m 0 c).arrAt_eq_of_cover 4 (rsArr4 m c) (fun t hf => flushed_eq4 m c t hf) cover4

theorem tail_v4 (c : Dev nD) :
    (Pipeline.afterTail₀ cfgs (dats m) 0 (V0 m) [hostOps1] c main_v4 : Attn.SR.Idx → EReal) = (Attn.kRsArr (A0 m c) (A1 m c) (A2 m c)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3_1) = rsArr4 m c :=
    (Pipeline.withArrays_arr spec0 launch0.win.arr_inj c _ _ 4).trans (final4 m c)
  rw [hw]
  funext i
  have h0 : (i 0).val < 1 := (i 0).isLt
  have h1 : (i 1).val < 16 := (i 1).isLt
  have h2 : (i 2).val < 4096 := (i 2).isLt
  show shapeCast S1x16x4096 (rsArr4 m c) shapeCasts_S1x16x1x4096_S1x16x4096 i = _
  refine (shapeCast_apply (rsArr4 m c) shapeCasts_S1x16x1x4096_S1x16x4096 i (ix4 (0 : Fin 1) (i 1 : Fin 16) (0 : Fin 1) (i 2 : Fin 4096)) ?_).trans ?_
  · rw [Shape.rowMajor_val_four, Shape.rowMajor_val_three]
    show (((0 : ℕ) * 16 + (i 1).val) * 1 + 0) * 4096 + (i 2).val = ((i 0).val * 16 + (i 1).val) * 4096 + (i 2).val
    omega
  · show (Attn.kRsArr (A0 m c) (A1 m c) (A2 m c)) (ix3 (0 : Fin 1) (i 1 : Fin 16) (i 2 : Fin 4096)) = (Attn.kRsArr (A0 m c) (A1 m c) (A2 m c)) i
    refine congrArg (Attn.kRsArr (A0 m c) (A1 m c) (A2 m c)) (funext fun a => ?_)
    match a with
    | ⟨0, _⟩ => exact Fin.ext (by show (0 : ℕ) = (i 0).val; omega)
    | ⟨1, _⟩ => rfl
    | ⟨2, _⟩ => rfl

theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3_0) = Attn.kOutArr (m ((c.tc : Thread nD τ).loc main_arg0)) (m ((c.tc : Thread nD τ).loc main_arg1)) (m ((c.tc : Thread nD τ).loc main_arg2))
      ∧ r.2.mem ((c.tc : Thread nD τ).loc main_v4) = Attn.kRsArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).1 3).trans (final3 m c),
     ((h c).2 main_v4 (Pipeline.mem_restRefs_of main_v4 (by decide) (by decide))).trans (tail_v4 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end ColumnSums

end Cert.KernelIdeal.Hand

end
-- ==== Proof.Ref.Value.lean ====
import proofs.«407351_j22883585753581_3_alg».proof.Proof.Gen.ReferenceIdeal.Run
import proofs.«407351_j22883585753581_3_alg».proof.Proof.Gen.ReferenceIdeal.Read
import proofs.«407351_j22883585753581_3_alg».proof.Proof.Heads
import Idealize.ShloMosaic.Lib.ValueIdx
import Idealize.ShloMosaic.Lib.Pipeline.Value
import Idealize.ShloMosaic.PureOps.Ideal.Laws
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

theorem mask_apply (s t : Fin 4096) : val_main_v2 (F := Ideal) (ix2 s t) = Attn.maskAdd s t := by
  rw [val_main_v2_apply, val_main_v1_apply, val_main_call0_v4_apply, val_main_call0_v2_apply, val_main_call0_v0_apply,
    val_main_call0_v1_apply, val_main_call0_c_apply, val_main_call0_v3_apply, val_main_call0_v5_apply, val_main_call0_c_0_apply,
    val_main_v0_apply, val_main_c_apply, val_main_call1_v0_apply, val_main_cst_apply, val_main_call1_v1_apply, val_main_cst_0_apply]
  show Scalar.select (Scalar.select (IntOp.cmpi .sge (IntOp.addi (BitVec.ofNat 32 s.val) 0#32) (BitVec.ofNat 32 t.val)) 0#1 1#1)
    (Ideal.ofBits .f32 0xFF800000#32) (Ideal.ofBits .f32 0x00000000#32) = _
  have hs : (BitVec.ofNat 32 s.val).toNat = s.val := by
    rw [BitVec.toNat_ofNat]; have := s.isLt; omega
  have ht : (BitVec.ofNat 32 t.val).toNat = t.val := by
    rw [BitVec.toNat_ofNat]; have := t.isLt; omega
  have h0 : IntOp.addi (BitVec.ofNat 32 s.val) 0#32 = BitVec.ofNat 32 s.val := BitVec.add_zero _
  rw [h0]
  have key := Predicate.sge_iff_toNat (a := BitVec.ofNat 32 s.val) (b := BitVec.ofNat 32 t.val)
    (by rw [hs]; have := s.isLt; omega) (by rw [ht]; have := t.isLt; omega)
  rw [hs, ht] at key
  unfold Attn.maskAdd
  by_cases h : s.val < t.val
  · have hc : IntOp.cmpi .sge (BitVec.ofNat 32 s.val) (BitVec.ofNat 32 t.val) = 0#1 :=
      eq_zero_of_ne_one fun e => by have := key.mp e; omega
    rw [hc, select_zero, select_one, if_pos h]
    simp [Ideal.ofBits, Ideal.ieee]
  · have hc : IntOp.cmpi .sge (BitVec.ofNat 32 s.val) (BitVec.ofNat 32 t.val) = 1#1 := key.mpr (by omega)
    rw [hc, select_one, select_zero, if_neg h]
    exact Ideal.ofBits_zero_f32

theorem v7_at (b : Fin 1) (h : Fin 16) (s t : Fin 4096) : val_main_v7 (F := Ideal) (ix4 b h s t) = Attn.maskAdd s t := by
  rw [val_main_v7_apply, val_main_v6_apply, ← mask_apply]
  exact congrArg _ (funext fun a => Fin.ext (by match a with | ⟨0, _⟩ => rfl | ⟨1, _⟩ => rfl))

theorem rowMax_apply (y : S1x16x4096x4096.Idx → EReal) (b : Fin 1) (h : Fin 16) (s : Fin 4096) :
    Host.reduce (FloatOps.maximumf (F := Ideal) (φ := .f32)) y (val_main_cst_2 (F := Ideal)) reducesTo_S1x16x4096x4096_S1x16x4096_d3 h_S_ (ix3 b h s)
      = Finset.univ.fold max ⊥ (fun t : Fin 4096 => y (ix4 b h s t)) := by
  rw [Host.reduce_eq_fold_single (FloatOps.maximumf (F := Ideal) (φ := .f32)) y _ reducesTo_S1x16x4096x4096_S1x16x4096_d3
    (by decide : S1x16x4096x4096.Reduces [3] S1x16x4096) h_S_]
  have hb : val_main_cst_2 (F := Ideal) (Shape.Idx.first h_S_) = ⊥ := by
    show Ideal.ofBits .f32 0xFF800000#32 = ⊥
    simp [Ideal.ofBits, Ideal.ieee]
  rw [hb]
  refine congrArg (fun f : Fin 4096 → EReal => Finset.fold max ⊥ f Finset.univ) (funext fun t => ?_)
  show y _ = y _
  exact congrArg y (funext fun a => Fin.ext (by
    match a with | ⟨0, _⟩ => rfl | ⟨1, _⟩ => rfl | ⟨2, _⟩ => rfl | ⟨3, _⟩ => rfl))

variable (x0 : (⟨S1x16x4096x64, .f32⟩ : BufTy).Contents (Elt Ideal)) (x1 : (⟨S1x16x64x4096, .f32⟩ : BufTy).Contents (Elt Ideal))

theorem v5_at (b : Fin 1) (h : Fin 16) (s t : Fin 4096) :
    val_main_v5 (F := Ideal) x0 x1 (ix4 b h s t) = Attn.headS x0 x1 h s t := by
  obtain rfl : b = 0 := Subsingleton.elim _ _
  rw [val_main_v5_apply, val_main_v3_apply, val_main_v4_apply, val_main_cst_1_apply]
  show (∑ k : Fin 64, x0 (lidx_main_v3 (ix4 0 h s t) k) * x1 (ridx_main_v3 (ix4 0 h s t) k)) * Ideal.ofBits .f32 0x3E000000#32 = _
  unfold Attn.headS Attn.scoreOf Attn.headQ Attn.headK Attn.c8
  refine congrArg (· * _) (Finset.sum_congr rfl fun k _ => ?_)
  have el : lidx_main_v3 (ix4 (0 : Fin 1) h s t) k = ix4 (0 : Fin 1) h s k := funext fun a => Fin.ext (by
    match a with | ⟨0, _⟩ => rfl | ⟨1, _⟩ => rfl | ⟨2, _⟩ => rfl | ⟨3, _⟩ => rfl)
  have er : ridx_main_v3 (ix4 (0 : Fin 1) h s t) k = ix4 (0 : Fin 1) h k t := funext fun a => Fin.ext (by
    match a with | ⟨0, _⟩ => rfl | ⟨1, _⟩ => rfl | ⟨2, _⟩ => rfl | ⟨3, _⟩ => rfl)
  rw [el, er]

theorem v8_at (b : Fin 1) (h : Fin 16) (s t : Fin 4096) :
    val_main_v8 (F := Ideal) x0 x1 (ix4 b h s t) = Attn.refScore (Attn.headS x0 x1 h) s t := by
  rw [val_main_v8_apply, v5_at, v7_at]
  rfl

theorem v9_at (b : Fin 1) (h : Fin 16) (s : Fin 4096) :
    val_main_v9 (F := Ideal) x0 x1 (ix3 b h s) = Attn.refMax (Attn.headS x0 x1 h) s := by
  unfold val_main_v9
  rw [rowMax_apply]
  unfold Attn.refMax
  exact congrArg (fun f : Fin 4096 → EReal => Finset.fold max ⊥ f Finset.univ) (funext fun t => v8_at x0 x1 b h s t)

theorem v13_at (b : Fin 1) (h : Fin 16) (s t : Fin 4096) :
    val_main_v13 (F := Ideal) x0 x1 (ix4 b h s t) = Attn.refExp (Attn.headS x0 x1 h) s t := by
  obtain rfl : b = 0 := Subsingleton.elim _ _
  rw [val_main_v13_apply, val_main_v12_apply, val_main_v11_apply, val_main_v10_apply, v8_at]
  have e : idx_main_v10 (idx_main_v11 (ix4 (0 : Fin 1) h s t)) = ix3 (0 : Fin 1) h s := funext fun a => Fin.ext (by
    match a with | ⟨0, _⟩ => rfl | ⟨1, _⟩ => rfl | ⟨2, _⟩ => rfl)
  rw [e, v9_at]
  rfl

theorem v14_at (b : Fin 1) (h : Fin 16) (s : Fin 4096) :
    val_main_v14 (F := Ideal) x0 x1 (ix3 b h s) = Attn.refDen (Attn.headS x0 x1 h) s := by
  rw [val_main_v14_apply, val_main_cst_3_apply]
  show Ideal.ofBits .f32 0x00000000#32 + _ = _
  rw [Ideal.ofBits_zero_f32, zero_add]
  unfold Attn.refDen
  refine Finset.sum_congr rfl fun t _ => ?_
  have e : idx_main_v14 (ix3 b h s) t = ix4 b h s t := funext fun a => Fin.ext (by
    match a with | ⟨0, _⟩ => rfl | ⟨1, _⟩ => rfl | ⟨2, _⟩ => rfl | ⟨3, _⟩ => rfl)
  rw [e, v13_at]

theorem v17_at (b : Fin 1) (h : Fin 16) (s t : Fin 4096) :
    val_main_v17 (F := Ideal) x0 x1 (ix4 b h s t) = Attn.refP (Attn.headS x0 x1 h) s t := by
  obtain rfl : b = 0 := Subsingleton.elim _ _
  rw [val_main_v17_apply, val_main_v16_apply, val_main_v15_apply, v13_at]
  have e : idx_main_v15 (idx_main_v16 (ix4 (0 : Fin 1) h s t)) = ix3 (0 : Fin 1) h s := funext fun a => Fin.ext (by
    match a with | ⟨0, _⟩ => rfl | ⟨1, _⟩ => rfl | ⟨2, _⟩ => rfl)
  rw [e, v14_at]
  rfl

theorem v18_at (x2 : (⟨S1x16x4096x64, .f32⟩ : BufTy).Contents (Elt Ideal)) (i : S1x16x4096x64.Idx) :
    val_main_v18 (F := Ideal) x0 x1 x2 i = Attn.outArr x0 x1 x2 i := by
  obtain ⟨b, h, s, d, rfl⟩ : ∃ (b : Fin 1) (h : Fin 16) (s : Fin 4096) (d : Fin 64), i = ix4 b h s d :=
    ⟨i 0, i 1, i 2, i 3, eq_ix4 i⟩
  obtain rfl : b = 0 := Subsingleton.elim _ _
  rw [val_main_v18_apply]
  show _ = Attn.refOut (Attn.headS x0 x1 h) (Attn.headQ x2 h) s d
  unfold Attn.refOut Attn.headQ
  refine Finset.sum_congr rfl fun t _ => ?_
  have el : lidx_main_v18 (ix4 (0 : Fin 1) h s d) t = ix4 (0 : Fin 1) h s t := funext fun a => Fin.ext (by
    match a with | ⟨0, _⟩ => rfl | ⟨1, _⟩ => rfl | ⟨2, _⟩ => rfl | ⟨3, _⟩ => rfl)
  have er : ridx_main_v18 (ix4 (0 : Fin 1) h s d) t = ix4 (0 : Fin 1) h t d := funext fun a => Fin.ext (by
    match a with | ⟨0, _⟩ => rfl | ⟨1, _⟩ => rfl | ⟨2, _⟩ => rfl | ⟨3, _⟩ => rfl)
  rw [el, er, v17_at]

theorem v19_at (i : S1x16x4096.Idx) : val_main_v19 (F := Ideal) x0 x1 i = Attn.rsArr x0 x1 i := by
  obtain ⟨b, h, t, rfl⟩ : ∃ (b : Fin 1) (h : Fin 16) (t : Fin 4096), i = ix3 b h t := ⟨i 0, i 1, i 2, eq_ix3 i⟩
  rw [val_main_v19_apply, val_main_cst_4_apply]
  show Ideal.ofBits .f32 0x00000000#32 + _ = Attn.refRS (Attn.headS x0 x1 h) t
  rw [Ideal.ofBits_zero_f32, zero_add]
  unfold Attn.refRS
  refine Finset.sum_congr rfl fun s _ => ?_
  have e : idx_main_v19 (ix3 b h t) s = ix4 b h s t := funext fun a => Fin.ext (by
    match a with | ⟨0, _⟩ => rfl | ⟨1, _⟩ => rfl | ⟨2, _⟩ => rfl | ⟨3, _⟩ => rfl)
  rw [e, v17_at]

theorem out0_eq (m : (ℓ : Loc nD τ sig) → Buf (Elt Ideal) ℓ) (c : Dev nD) :
    Cert.ReferenceIdeal.Value.res_out0 (F := Ideal) m c = Attn.outArr (m ((c.tc : Thread nD τ).loc main_arg0)) (m ((c.tc : Thread nD τ).loc main_arg1)) (m ((c.tc : Thread nD τ).loc main_arg2)) := by
  funext i
  exact (congrFun (val_main_v18_eq (F := Ideal) m c) i).trans (v18_at _ _ _ i)

theorem out1_eq (m : (ℓ : Loc nD τ sig) → Buf (Elt Ideal) ℓ) (c : Dev nD) :
    Cert.ReferenceIdeal.Value.res_out1 (F := Ideal) m c = Attn.rsArr (m ((c.tc : Thread nD τ).loc main_arg0)) (m ((c.tc : Thread nD τ).loc main_arg1)) := by
  funext i
  exact (congrFun (val_main_v19_eq (F := Ideal) m c) i).trans (v19_at _ _ i)

end Cert.ReferenceIdeal.RefValue

end
-- ==== Proof.Finite.lean ====
import proofs.«407351_j22883585753581_3_alg».proof.Defs
import proofs.«407351_j22883585753581_3_alg».proof.Proof.Gen.Pre_finite_inputs
import Idealize.ShloMosaic.Lib.ReduceAll
import Idealize.ShloMosaic.Lib.ValueIdx

noncomputable section

namespace Cert.KernelIdeal.Hand

open Idealize.ShloMosaic Idealize.SL.Sem Idealize.ShloMosaic.ValueIdx
open Cert.KernelIdeal

theorem inf_eq_top : Ideal.ofBits .f32 0x7F800000#32 = (⊤ : EReal) := by
  simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf a)
            (broadcastInDim s ![] hb (constant (F := Ideal) Cert.Pre_finite_inputs.S_ .f32 0x7F800000#32)))
          init hr hu ix0 = 1#1)
    (i : s.Idx) : ∃ r : ℝ, a i = (r : EReal) :=
  real_of_abs_lt_inf (a i) (Host.reduce_andi_all _ _ hr hu ix0 e i)

theorem finite_of_pre [hP : Cert.Pre_finite_inputs.Facts] (m : (ℓ : Loc nD τ sig) → Buf (Elt Ideal) ℓ) (h : Cert.Pre_KernelIdeal m) (c : Dev nD) :
      (∀ i, ∃ x : ℝ, m ((c.tc : Thread nD τ).loc main_arg0) i = (x : EReal))
    ∧ (∀ i, ∃ x : ℝ, m ((c.tc : Thread nD τ).loc main_arg1) i = (x : EReal))
    ∧ (∀ i, ∃ x : ℝ, m ((c.tc : Thread nD τ).loc main_arg2) i = (x : EReal)) := by
  have h0 := congrFun (h c) ix0
  dsimp only [Cert.Pre_finite_inputs.fn] at h0
  obtain ⟨h01, h2⟩ := IntOp.andi_eq_one.1 h0
  obtain ⟨h0', h1⟩ := IntOp.andi_eq_one.1 h01
  exact ⟨fun i => real_of_all _ _ _ _ _ h0' i, fun i => real_of_all _ _ _ _ _ h1 i, fun i => real_of_all _ _ _ _ _ h2 i⟩

end Cert.KernelIdeal.Hand

end
-- ==== Proof.lean ====
import proofs.«407351_j22883585753581_3_alg».proof.Defs
import proofs.«407351_j22883585753581_3_alg».proof.Proof.Gen.Kernel
import proofs.«407351_j22883585753581_3_alg».proof.Proof.Gen.KernelIdeal
import proofs.«407351_j22883585753581_3_alg».proof.Proof.Gen.ReferenceIdeal
import proofs.«407351_j22883585753581_3_alg».proof.Proof.Gen.Pre_finite_inputs
import proofs.«407351_j22883585753581_3_alg».proof.Proof.Gen.ReferenceIdeal.Run
import proofs.«407351_j22883585753581_3_alg».proof.Proof.K.Frame
import proofs.«407351_j22883585753581_3_alg».proof.Proof.KI.Frame
import proofs.«407351_j22883585753581_3_alg».proof.Proof.KI.Arrays
import proofs.«407351_j22883585753581_3_alg».proof.Proof.Ref.Value
import proofs.«407351_j22883585753581_3_alg».proof.Proof.Finite
import Idealize.ShloMosaic.Adequacy
import Idealize.ShloMosaic.Init

noncomputable section

namespace Cert.Proof

open Idealize.ShloMosaic Idealize.SL.Sem

section
variable [hK : Cert.Kernel.Facts] [hKI : Cert.KernelIdeal.Facts] [hR : Cert.ReferenceIdeal.Facts] [hP : Cert.Pre_finite_inputs.Facts]

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem neg_big_statement : IdealRules.named_const.Statement Cert.KernelIdeal.κ "neg_big" .f32 0xF149F2CA#32 ⊥ :=
  IdealRules.named_const.statement Cert.KernelIdeal.κ "neg_big" .f32 0xF149F2CA#32 ⊥ rfl

theorem preserves : Cert.preserves_Kernel_KernelIdeal :=
  ⟨neg_big_statement, neg_big_statement, neg_big_statement, neg_big_statement, neg_big_statement, neg_big_statement,
    neg_big_statement, neg_big_statement⟩

/-- On finite inputs the kernel's chunked running-maximum recurrence and the reference's masked softmax give the same two arrays. -/
theorem algebraic : Cert.algebraic_KernelIdeal_ReferenceIdeal := by
  intro m ρ m' ρ' hpre hagree
  refine ⟨fun c => Attn.kOutArr (m ((c.tc : Thread Cert.KernelIdeal.nD Cert.KernelIdeal.τ).loc Cert.KernelIdeal.main_arg0))
                      (m ((c.tc : Thread Cert.KernelIdeal.nD Cert.KernelIdeal.τ).loc Cert.KernelIdeal.main_arg1))
                      (m ((c.tc : Thread Cert.KernelIdeal.nD Cert.KernelIdeal.τ).loc Cert.KernelIdeal.main_arg2)),
          fun c => Attn.kRsArr (m ((c.tc : Thread Cert.KernelIdeal.nD Cert.KernelIdeal.τ).loc Cert.KernelIdeal.main_arg0))
                      (m ((c.tc : Thread Cert.KernelIdeal.nD Cert.KernelIdeal.τ).loc Cert.KernelIdeal.main_arg1))
                      (m ((c.tc : Thread Cert.KernelIdeal.nD Cert.KernelIdeal.τ).loc Cert.KernelIdeal.main_arg2)),
          Cert.KernelIdeal.Hand.run_value m ρ, ?_⟩
  refine (θ_run Cert.ReferenceIdeal.defs _ _).mono (fun _ h c => ?_) (Cert.ReferenceIdeal.Value.run (F := Ideal) m' ρ')
  obtain ⟨h0, h1, h2⟩ := Cert.KernelIdeal.Hand.finite_of_pre m hpre c
  refine ⟨(h c).1.trans ?_, (h c).2.1.trans ?_, (h c).2.2⟩
  · refine (Cert.ReferenceIdeal.RefValue.out0_eq m' c).trans ?_
    rw [(hagree c).1, (hagree c).2.1, (hagree c).2.2]
    exact (Attn.kOutArr_eq _ _ _ h0 h1 h2).symm
  · refine (Cert.ReferenceIdeal.RefValue.out1_eq m' c).trans ?_
    rw [(hagree c).1, (hagree c).2.1]
    exact (Attn.kRsArr_eq _ _ _ h0 h1 h2).symm

end

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
